-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S2x640000 32 := broadcastInDim S2x640000 ![] bcast_S_S2x640000 main_c_14
  let main_v40 : IVec S2x640000 1 := cmpi .sge main_arg1 main_v39
  let main_c_15 : IVec S_ 32 := constantI S_ 32 10000#32
  let main_v41 : IVec S2x640000 32 := broadcastInDim S2x640000 ![] bcast_S_S2x640000 main_c_15
  let main_v42 : IVec S2x640000 1 := cmpi .slt main_arg1 main_v41
  let main_v43 : IVec S2x640000 1 := andi main_v40 main_v42
  let main_c_16 : IVec S_ 1 := constantI S_ 1 1#1
  let main_v44 : IVec S_ 1 := (fun x v => Host.reduce IntOp.andi x v reducesTo_S2x640000_S_d0_1 h_S_) main_v43 main_c_16
  let main_v45 : IVec S_ 1 := andi main_v38 main_v44
  main_v45

def fn_part1 {F : FTy → Type} [FloatOps F] (main_arg1 : IVec S2x640000 32) (main_arg5 : FVec F S3x128x128 .f32) (main_arg6 : FVec F S3x128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_v33

def fn {F : FTy → Type} [FloatOps F] (main_arg0 : FVec F S10000x128 .f32) (main_arg1 : IVec S2x640000 32) (main_arg2 : FVec F S640000 .f32) (main_arg3 : FVec F S128x128 .f32) (main_arg4 : FVec F S128 .f32) (main_arg5 : FVec F S3x128x128 .f32) (main_arg6 : FVec F S3x128 .f32) (main_arg7 : FVec F S128x64 .f32) (main_arg8 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x640000 : Shape := ⟨2, ![1, 640000]⟩
abbrev S_ : Shape := ⟨0, ![]⟩
abbrev S10240x10240 : Shape := ⟨2, ![10240, 10240]⟩
abbrev S640000x1 : Shape := ⟨2, ![640000, 1]⟩
abbrev S640000x2 : Shape := ⟨2, ![640000, 2]⟩
abbrev S10240x128 : Shape := ⟨2, ![10240, 128]⟩
abbrev S1x128 : Shape := ⟨2, ![1, 128]⟩
abbrev S1280x128 : Shape := ⟨2, ![1280, 128]⟩
abbrev S1x128x128 : Shape := ⟨3, ![1, 128, 128]⟩
abbrev S1280x2560 : Shape := ⟨2, ![1280, 2560]⟩
abbrev S2560x128 : Shape := ⟨2, ![2560, 128]⟩
abbrev S1x64 : Shape := ⟨2, ![1, 64]⟩
abbrev S10240x64 : Shape := ⟨2, ![10240, 64]⟩
abbrev S1280x64 : Shape := ⟨2, ![1280, 64]⟩
abbrev S10000x64 : Shape := ⟨2, ![10000, 64]⟩

abbrev nBuf : Space → Nat
  | .hbm => 68
  | .vmem => 54
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S128x64, .f32⟩
  | .hbm, ⟨8, _⟩ => ⟨S64, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S10240x10240, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x1, .i32⟩
  | .hbm, ⟨31, _⟩ => ⟨S640000x2, .i32⟩
  | .hbm, ⟨32, _⟩ => ⟨S10240x10240, .f32⟩
  | .hbm, ⟨33, _⟩ => ⟨S10240x10240, .bf16⟩
  | .hbm, ⟨34, _⟩ => ⟨S_, .i32⟩
  | .hbm, ⟨35, _⟩ => ⟨S_, .f32⟩
  | .hbm, ⟨36, _⟩ => ⟨S10240x128, .f32⟩
  | .hbm, ⟨37, _⟩ => ⟨S1x128, .f32⟩
  | .hbm, ⟨38, _⟩ => ⟨S10240x128, .f32⟩
  | .hbm, ⟨39, _⟩ => ⟨S_, .f32⟩
  | .hbm, ⟨40, _⟩ => ⟨S128, .f32⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S10240x128, .bf16⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S10240x128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S10240x128, .bf16⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S10240x128, .f32⟩
  | .hbm, ⟨57, _⟩ => ⟨S1x128x128, .f32⟩
  | .hbm, ⟨58, _⟩ => ⟨S128x128, .f32⟩
  | .hbm, ⟨59, _⟩ => ⟨S1x128, .f32⟩
  | .hbm, ⟨60, _⟩ => ⟨S10240x128, .bf16⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S10240x128, .f32⟩
  | .hbm, ⟨65, _⟩ => ⟨S1x64, .f32⟩
  | .hbm, ⟨66, _⟩ => ⟨S10240x64, .f32⟩
  | .hbm, ⟨67, _⟩ => ⟨S10000x64, .f32⟩
  | .local _ .vmem, ⟨0, _⟩ => ⟨S1280x128, .f32⟩
  | .local _ .vmem, ⟨1, _⟩ => ⟨S1280x128, .f32⟩
  | .local _ .vmem, ⟨2, _⟩ => ⟨S128x128, .f32⟩
  | .local _ .vmem, ⟨3, _⟩ => ⟨S1x128, .f32⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | .local _ .vmem, ⟨8, _⟩ => ⟨S128x128, .f32⟩
  | .local _ .vmem, ⟨9, _⟩ => ⟨S1x128, .f32⟩
  | .local _ .vmem, ⟨10, _⟩ => ⟨S1280x128, .bf16⟩
  | .local _ .vmem, ⟨11, _⟩ => ⟨S1280x128, .bf16⟩
  | .local _ .vmem, ⟨12, _⟩ => ⟨S1280x2560, .bf16⟩
  | .local _ .vmem, ⟨13, _⟩ => ⟨S1280x2560, .bf16⟩
  | .local _ .vmem, ⟨14, _⟩ => ⟨S2560x128, .bf16⟩
  | .local _ .vmem, ⟨15, _⟩ => ⟨S2560x128, .bf16⟩
  | .local _ .vmem, ⟨16, _⟩ => ⟨S1x128, .f32⟩
  | .local _ .vmem, ⟨17, _⟩ => ⟨S1280x128, .f32⟩
  | .local _ .vmem, ⟨18, _⟩ => ⟨S1280x128, .f32⟩
  | .local _ .vmem, ⟨19, _⟩ => ⟨S1280x128, .f32⟩
  | .local _ .vmem, ⟨20, _⟩ => ⟨S1280x128, .f32⟩
  | .local _ .vmem, ⟨21, _⟩ => ⟨S1280x128, .f32⟩
  | .local _ .vmem, ⟨22, _⟩ => ⟨S128x128, .f32⟩
  | .local _ .vmem, ⟨23, _⟩ => ⟨S1x128, .f32⟩
  | .local _ .vmem, ⟨24, _⟩ => ⟨S1280x128, .bf16⟩
  | .local _ .vmem, ⟨25, _⟩ => ⟨S1280x128, .bf16⟩
  | .local _ .vmem, ⟨26, _⟩ => ⟨S1280x2560, .bf16⟩
  | .local _ .vmem, ⟨27, _⟩ => ⟨S1280x2560, .bf16⟩
  | .local _ .vmem, ⟨28, _⟩ => ⟨S2560x128, .bf16⟩
  | .local _ .vmem, ⟨29, _⟩ => ⟨S2560x128, .bf16⟩
  | .local _ .vmem, ⟨30, _⟩ => ⟨S1x128, .f32⟩
  | .local _ .vmem, ⟨31, _⟩ => ⟨S1280x128, .f32⟩
  | .local _ .vmem, ⟨32, _⟩ => ⟨S1280x128, .f32⟩
  | .local _ .vmem, ⟨33, _⟩ => ⟨S1280x128, .f32⟩
  | .local _ .vmem, ⟨34, _⟩ => ⟨S1280x128, .f32⟩
  | .local _ .vmem, ⟨35, _⟩ => ⟨S1280x128, .f32⟩
  | .local _ .vmem, ⟨36, _⟩ => ⟨S128x128, .f32⟩
  | .local _ .vmem, ⟨37, _⟩ => ⟨S1x128, .f32⟩
  | .local _ .vmem, ⟨38, _⟩ => ⟨S1280x128, .bf16⟩
  | .local _ .vmem, ⟨39, _⟩ => ⟨S1280x128, .bf16⟩
  | .local _ .vmem, ⟨40, _⟩ => ⟨S1280x2560, .bf16⟩
  | .local _ .vmem, ⟨41, _⟩ => ⟨S1280x2560, .bf16⟩
  | .local _ .vmem, ⟨42, _⟩ => ⟨S2560x128, .bf16⟩
  | .local _ .vmem, ⟨43, _⟩ => ⟨S2560x128, .bf16⟩
  | .local _ .vmem, ⟨44, _⟩ => ⟨S1x128, .f32⟩
  | .local _ .vmem, ⟨45, _⟩ => ⟨S1280x128, .f32⟩
  | .local _ .vmem, ⟨46, _⟩ => ⟨S1280x128, .f32⟩
  | .local _ .vmem, ⟨47, _⟩ => ⟨S1280x128, .f32⟩
  | .local _ .vmem, ⟨48, _⟩ => ⟨S1280x128, .f32⟩
  | .local _ .vmem, ⟨49, _⟩ => ⟨S1280x128, .f32⟩
  | .local _ .vmem, ⟨50, _⟩ => ⟨S128x64, .f32⟩
  | .local _ .vmem, ⟨51, _⟩ => ⟨S1x64, .f32⟩
  | .local _ .vmem, ⟨52, _⟩ => ⟨S1280x64, .f32⟩
  | .local _ .vmem, ⟨53, _⟩ => ⟨S1280x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg3_1 : Ref sig .tc := ⟨.vmem, 46, rfl⟩
abbrev cc6_scratch0 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem3_0 : DmaSem sig := 49
abbrev cc7_sem3_1 : DmaSem sig := 50

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1280x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2560x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1280x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1280x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1280x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 4], ![false, false]⟩

def k4_cond2 (i : grid4.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1280x2560 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2560x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1280x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1280x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1280x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![8, 4], ![false, false]⟩

def k6_cond2 (i : grid6.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1280x2560 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2560x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1280x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1280x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1280x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10240x10240 : S_.BroadcastsInDim S10240x10240 (![] : Fin 0 → Fin S10240x10240.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  packedbf16_S1280x128_S1280x128_0_0 : (Rect.unit (s := S1280x128) ![0, 0] S1280x128.size inb_S1280x128_S1280x128_0_0).PackedRows (EltTy.packing .bf16)
  slices_S3x128_S1x128_0_0 : S3x128.Slices ![0, 0] S1x128
  shapeCasts_S1x128_S128 : S1x128.ShapeCasts S128
  inb_S1280x2560_S1280x2560_0_0 : ∀ a, (![0, 0] : Fin 2 → Nat) a + S1280x2560.size a ≤ S1280x2560.size a
  h_S1280x2560 : 0 < S1280x2560.numel
  shapeCasts_S1280x2560_S1280x2560 : S1280x2560.ShapeCasts S1280x2560
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1280x64 : S1x64.Broadcasts S1280x64
  inb_S1280x64_S1280x64_0_0 : ∀ a, (![0, 0] : Fin 2 → Nat) a + S1280x64.size a ≤ S1280x64.size a
  h_S1280x64 : 0 < S1280x64.numel
  slices_S10240x64_S10000x64_0_0 : S10240x64.Slices ![0, 0] S10000x64
  scatter_S10240x10240_S640000x2_S640000_n_01_01_1_wf : ScatterDims.WF S10240x10240 S640000x2 S640000 [] [0, 1] [0, 1] 1
  dot_S1280x128_S128x128_S1280x128_1_0_0_1_n_n_wf : DotDims.WF S1280x128 S128x128 S1280x128 [1] [0] [0] [1] [] []
  dot_S1280x2560_S2560x128_S1280x128_1_0_0_1_n_n_wf : DotDims.WF S1280x2560 S2560x128 S1280x128 [1] [0] [0] [1] [] []
  dot_S1280x128_S128x64_S1280x64_1_0_0_1_n_n_wf : DotDims.WF S1280x128 S128x64 S1280x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S10240x128.size a
  hwx0_0 : ∀ i : grid0.Coords, EltTy.bits .f32 = 32 ∨ (Rect.block (s := S10240x128) S1280x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x128.size a ≤ S10240x128.size a
  hwx0_3 : ∀ i : grid0.Coords, EltTy.bits .f32 = 32 ∨ (Rect.block (s := S10240x128) S1280x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x128.size a ≤ S10240x128.size a
  hwx1_0 : ∀ i : grid1.Coords, EltTy.bits .f32 = 32 ∨ (Rect.block (s := S10240x128) S1280x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x128.size a ≤ S10240x128.size a
  hwx1_3 : ∀ i : grid1.Coords, EltTy.bits .bf16 = 32 ∨ (Rect.block (s := S10240x128) S1280x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x2560.size a ≤ S10240x10240.size a
  hwx2_0 : ∀ i : grid2.Coords, EltTy.bits .bf16 = 32 ∨ (Rect.block (s := S10240x10240) S1280x2560.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x128.size a ≤ S10240x128.size a
  hwx2_1 : ∀ i : grid2.Coords, EltTy.bits .bf16 = 32 ∨ (Rect.block (s := S10240x128) S2560x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1280x128.size a ≤ S10240x128.size a
  hwx2_3 : ∀ i : grid2.Coords, EltTy.bits .f32 = 32 ∨ (Rect.block (s := S10240x128) S1280x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x128.size a ≤ S10240x128.size a
  hwx3_0 : ∀ i : grid3.Coords, EltTy.bits .f32 = 32 ∨ (Rect.block (s := S10240x128) S1280x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1280x128.size a ≤ S10240x128.size a
  hwx3_3 : ∀ i : grid3.Coords, EltTy.bits .bf16 = 32 ∨ (Rect.block (s := S10240x128) S1280x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x2560.size a ≤ S10240x10240.size a
  hwx4_0 : ∀ i : grid4.Coords, EltTy.bits .bf16 = 32 ∨ (Rect.block (s := S10240x10240) S1280x2560.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2560x128.size a ≤ S10240x128.size a
  hwx4_1 : ∀ i : grid4.Coords, EltTy.bits .bf16 = 32 ∨ (Rect.block (s := S10240x128) S2560x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1280x128.size a ≤ S10240x128.size a
  hwx4_3 : ∀ i : grid4.Coords, EltTy.bits .f32 = 32 ∨ (Rect.block (s := S10240x128) S1280x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1280x128.size a ≤ S10240x128.size a
  hwx5_0 : ∀ i : grid5.Coords, EltTy.bits .f32 = 32 ∨ (Rect.block (s := S10240x128) S1280x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1280x128.size a ≤ S10240x128.size a
  hwx5_3 : ∀ i : grid5.Coords, EltTy.bits .bf16 = 32 ∨ (Rect.block (s := S10240x128) S1280x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1280x2560.size a ≤ S10240x10240.size a
  hwx6_0 : ∀ i : grid6.Coords, EltTy.bits .bf16 = 32 ∨ (Rect.block (s := S10240x10240) S1280x2560.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2560x128.size a ≤ S10240x128.size a
  hwx6_1 : ∀ i : grid6.Coords, EltTy.bits .bf16 = 32 ∨ (Rect.block (s := S10240x128) S2560x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1280x128.size a ≤ S10240x128.size a
  hwx6_3 : ∀ i : grid6.Coords, EltTy.bits .f32 = 32 ∨ (Rect.block (s := S10240x128) S1280x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1280x128.size a ≤ S10240x128.size a
  hwx7_0 : ∀ i : grid7.Coords, EltTy.bits .f32 = 32 ∨ (Rect.block (s := S10240x128) S1280x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1280x64.size a ≤ S10240x64.size a
  hwx7_3 : ∀ i : grid7.Coords, EltTy.bits .f32 = 32 ∨ (Rect.block (s := S10240x64) S1280x64.size (cc7_transform_3 i) (hinb7_3 i)).WholeWords (EltTy.packing .f32)

variable [Facts₀]

def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def dot_S1280x2560_S2560x128_S1280x128_1_0_0_1_n_n : DotDims S1280x2560 S2560x128 S1280x128 where
  lhsContracting := [1]
  rhsContracting := [0]
  lhsNonContracting := [0]
  rhsNonContracting := [1]
  lhsBatch := []
  rhsBatch := []
  wf := dot_S1280x2560_S2560x128_S1280x128_1_0_0_1_n_n_wf
def dot_S1280x128_S128x64_S1280x64_1_0_0_1_n_n : DotDims S1280x128 S128x64 S1280x64 where
  lhsContracting := [1]
  rhsContracting := [0]
  lhsNonContracting := [0]
  rhsNonContracting := [1]
  lhsBatch := []
  rhsBatch := []
  wf := dot_S1280x128_S128x64_S1280x64_1_0_0_1_n_n_wf

abbrev win0_0 : Pipeline.Window sig grid0 :=
  Pipeline.Window.ofSpec (Memref.whole main_v20) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1280x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S1280x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1280x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S1280x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2560x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1280x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v31) S1280x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1280x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v19) S1280x2560.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S2560x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S1280x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v39) S1280x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v42) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v43) S1280x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v19) S1280x2560.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v43) S2560x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v46) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v47) S1280x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v47) S1280x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg7) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v48) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v49) S1280x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x128 : Shape := ⟨2, ![1, 128]⟩
abbrev S1x640000 : Shape := ⟨2, ![1, 640000]⟩
abbrev S1x128x128 : Shape := ⟨3, ![1, 128, 128]⟩
abbrev S_ : Shape := ⟨0, ![]⟩
abbrev S640000x1 : Shape := ⟨2, ![640000, 1]⟩
abbrev S640000x128 : Shape := ⟨2, ![640000, 128]⟩
abbrev S10000x64 : Shape := ⟨2, ![10000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S128x64, .f32⟩
  | .hbm, ⟨8, _⟩ => ⟨S64, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S1x128x128, .f32⟩
  | .hbm, ⟨19, _⟩ => ⟨S128x128, .f32⟩
  | .hbm, ⟨20, _⟩ => ⟨S10000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x1, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S10000x128, .f32⟩
  | .hbm, ⟨35, _⟩ => ⟨S640000x1, .i32⟩
  | .hbm, ⟨36, _⟩ => ⟨S10000x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S1x128x128, .f32⟩
  | .hbm, ⟨44, _⟩ => ⟨S128x128, .f32⟩
  | .hbm, ⟨45, _⟩ => ⟨S10000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S640000x1, .f32⟩
  | .hbm, ⟨56, _⟩ => ⟨S640000x128, .f32⟩
  | .hbm, ⟨57, _⟩ => ⟨S640000x128, .f32⟩
  | .hbm, ⟨58, _⟩ => ⟨S_, .f32⟩
  | .hbm, ⟨59, _⟩ => ⟨S10000x128, .f32⟩
  | .hbm, ⟨60, _⟩ => ⟨S640000x1, .i32⟩
  | .hbm, ⟨61, _⟩ => ⟨S10000x128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S1x128x128, .f32⟩
  | .hbm, ⟨69, _⟩ => ⟨S128x128, .f32⟩
  | .hbm, ⟨70, _⟩ => ⟨S10000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S640000x1, .f32⟩
  | .hbm, ⟨81, _⟩ => ⟨S640000x128, .f32⟩
  | .hbm, ⟨82, _⟩ => ⟨S640000x128, .f32⟩
  | .hbm, ⟨83, _⟩ => ⟨S_, .f32⟩
  | .hbm, ⟨84, _⟩ => ⟨S10000x128, .f32⟩
  | .hbm, ⟨85, _⟩ => ⟨S640000x1, .i32⟩
  | .hbm, ⟨86, _⟩ => ⟨S10000x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S10000x128, .f32⟩
  | .hbm, ⟨91, _⟩ => ⟨S10000x128, .f32⟩
  | .hbm, ⟨92, _⟩ => ⟨S10000x128, .f32⟩
  | .hbm, ⟨93, _⟩ => ⟨S10000x64, .f32⟩
  | .hbm, ⟨94, _⟩ => ⟨S1x64, .f32⟩
  | .hbm, ⟨95, _⟩ => ⟨S10000x64, .f32⟩
  | .hbm, ⟨96, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_1 : Ref sig .tc := ⟨.hbm, 46, rfl⟩
abbrev main_v34 : Ref sig .tc := ⟨.hbm, 47, rfl⟩
abbrev main_v35 : Ref sig .tc := ⟨.hbm, 48, rfl⟩
abbrev main_c_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_4 : Ref sig .tc := ⟨.hbm, 71, rfl⟩
abbrev main_v56 : Ref sig .tc := ⟨.hbm, 72, rfl⟩
abbrev main_v57 : Ref sig .tc := ⟨.hbm, 73, rfl⟩
abbrev main_c_5 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S3x128x128_S1x128x128_0_0_0 : S3x128x128.Slices ![0, 0, 0] S1x128x128
  shapeCasts_S1x128x128_S128x128 : S1x128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x64_S10000x64_1_0_0_1_n_n_wf : DotDims.WF S10000x128 S128x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.K.Lin0.lean ====
import proofs.«405037_j79285096284452_1_alg».proof.Proof.Gen.Kernel.Launch
import proofs.«405037_j79285096284452_1_alg».proof.Proof.Gen.Kernel.Skeleton
import Idealize.ShloMosaic.Lib.Pipeline.Value
import Idealize.ShloMosaic.Lib.Tactic

noncomputable section

namespace Cert.Kernel.Hand

open Cert.Kernel.Gen Idealize.ShloMosaic TcCoe Idealize.SL.RA

variable {F : FTy → Type} [FloatOps F]
  (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

local notation "Sₒ" => S1280x128
local notation "eₒ" => EltTy.f32
local notation "inbₒ" => inb_S1280x128_S1280x128_0_0

variable (x0 : Vec F S1280x128 .f32) (x1 : Vec F S128x128 .f32) (x2 : Vec F S1x128 .f32)

def out0_3 : Vec F Sₒ eₒ :=
  View.canon [⟨.unit ![0, 0] _ inbₒ, k0_pay1 (View.ld x0 (.unit ![0, 0] _ inb_S1280x128_S1280x128_0_0))
    (View.ld x1 (.unit ![0, 0] _ inb_S128x128_S128x128_0_0)) (View.ld x2 (.unit ![0, 0] _ inb_S1x128_S1x128_0_0))⟩]

theorem zeroOff0 : (![0, 0] : Fin 2 → Nat) = fun _ => 0 := by decide

theorem out0_3_eq : out0_3 x0 x1 x2 = k0_pay1 x0 x1 x2 := by
  rw [out0_3, View.canon_unit_zero zeroOff0, View.ld_unit_zero zeroOff0, View.ld_unit_zero zeroOff0, View.ld_unit_zero zeroOff0]

def dat0 : Pipeline.Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) :
    (dat0 V c).after 3 t = out0_3 (iblk0 V c 0 t) (iblk0 V c 1 t) (iblk0 V c 2 t) := by dsimp only [dat0]

theorem before0_in (t : Fin cfg0.N) : ∀ w : Fin cfg0.W, w ≠ 3 → ∀ d, (dat0 V c).before w t d = (dat0 V c).after w t
  | ⟨0, _⟩, _ | ⟨1, _⟩, _ | ⟨2, _⟩, _ => (dat0 V c).before_in_eq_fetched _ rfl (fun _ => rfl) (fun _ _ _ => rfl) (fun _ => rfl) t
  | ⟨3, _⟩, h => absurd rfl h

theorem body_obligation0 : Pipeline.BodyObligation (dat0 V c) defs₀ Variants.none () Set.univ := fun t => by
  simp (disch := decide) only [bigSep_W0, before0_in V c t]
  dsimp only [dat0, owns]
  sl_whnfR [defs₀, Defs.onTc]
  sl_unfold [cc0_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff0 inbₒ _⟩

end Cert.Kernel.Hand
-- ==== Proof.K.Seg0.lean ====
import proofs.«405037_j79285096284452_1_alg».proof.Proof.Gen.Kernel.Regions
import proofs.«405037_j79285096284452_1_alg».proof.Proof.K.Lin0
import Idealize.ShloMosaic.Lib.Pipeline.FrameSuffix

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ) (ρ : Dev nD → PrngReg)

theorem keep_of {gr W : Nat} (win : Fin W → Pipeline.WinSpec sig gr) (hinj : Function.Injective (Pipeline.arrRef win)) (c : Dev nD)
    (V : Valuation τ sig (Elt F)) (A : (w : Fin W) → Buf (Elt F) ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb; exact (Pipeline.withArrays_arr win hinj c V A w).trans (h w rfl)
  · exact Pipeline.withArrays_of_ne win c V A b fun w e => hb ⟨w, e⟩

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev Vin0 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N :=
  Pipeline.withArrays_arr spec0 launch0.win.arr_inj c _ _ w
abbrev Vout0 : (c : Dev nD) → (b : Ref sig .tc) → Buf (Elt F) ((c : Thread nD τ).loc b) := fun c b => W4 m ρ c b
theorem hF0 (c : Dev nD) (w : Fin cfg0.W) : (dat0 (Vin0 m ρ) c).arrAt w cfg0.N = Vout0 m ρ c (Pipeline.arrRef spec0 w) :=
  (W4_arr m ρ c w).symm
theorem hrest0 (c : Dev nD) : ∀ b, b ∉ Finset.univ.image (Pipeline.arrRef spec0) → Vout0 m ρ c b = Vin0 m ρ c b :=
  fun b hb => Pipeline.withArrays_of_ne spec0 c _ _ b fun w e => hb (Finset.mem_image.mpr ⟨w, Finset.mem_univ _, e⟩)

theorem W4_keep (c : Dev nD) (b : Ref sig .tc) (hb : b ≠ Pipeline.arrRef spec0 3) :
    W4 m ρ c (Proc.devRef .tc b) = W3 m ρ c (Proc.devRef .tc b) :=
  keep_of spec0 launch0.win.arr_inj c _ _ b fun w e => ((dat0 (Vin0 m ρ) c).arrAt_in w
    (match w, e with | ⟨0, _⟩, _ | ⟨1, _⟩, _ | ⟨2, _⟩, _ => rfl | ⟨3, _⟩, e => absurd e.symm hb) _).trans (A_eq0 (Vin0 m ρ) c w)

end Cert.Kernel.Hand

end
-- ==== Proof.K.Lin1.lean ====
import proofs.«405037_j79285096284452_1_alg».proof.Proof.Gen.Kernel.Launch
import proofs.«405037_j79285096284452_1_alg».proof.Proof.Gen.Kernel.Skeleton
import Idealize.ShloMosaic.Lib.Pipeline.Value
import Idealize.ShloMosaic.Lib.Tactic

noncomputable section

namespace Cert.Kernel.Hand

open Cert.Kernel.Gen Idealize.ShloMosaic TcCoe Idealize.SL.RA

variable {F : FTy → Type} [FloatOps F]
  (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

local notation "Sₒ" => S1280x128
local notation "eₒ" => EltTy.bf16
local notation "inbₒ" => inb_S1280x128_S1280x128_0_0

variable (x0 : Vec F S1280x128 .f32) (x1 : Vec F S128x128 .f32) (x2 : Vec F S1x128 .f32)

def out1_3 : Vec F Sₒ eₒ :=
  View.canon [⟨.unit ![0, 0] _ inbₒ, k1_pay1 (View.ld x0 (.unit ![0, 0] _ inb_S1280x128_S1280x128_0_0))
    (View.ld x1 (.unit ![0, 0] _ inb_S128x128_S128x128_0_0)) (View.ld x2 (.unit ![0, 0] _ inb_S1x128_S1x128_0_0))⟩]

theorem zeroOff1 : (![0, 0] : Fin 2 → Nat) = fun _ => 0 := by decide

theorem out1_3_eq : out1_3 x0 x1 x2 = k1_pay1 x0 x1 x2 := by
  rw [out1_3, View.canon_unit_zero zeroOff1, View.ld_unit_zero zeroOff1, View.ld_unit_zero zeroOff1, View.ld_unit_zero zeroOff1]

def dat1 : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_3 (t : Fin cfg1.N) :
    (dat1 V c).after 3 t = out1_3 (iblk1 V c 0 t) (iblk1 V c 1 t) (iblk1 V c 2 t) := by dsimp only [dat1]

theorem before1_in (t : Fin cfg1.N) : ∀ w : Fin cfg1.W, w ≠ 3 → ∀ d, (dat1 V c).before w t d = (dat1 V c).after w t
  | ⟨0, _⟩, _ | ⟨1, _⟩, _ | ⟨2, _⟩, _ => (dat1 V c).before_in_eq_fetched _ rfl (fun _ => rfl) (fun _ _ _ => rfl) (fun _ => rfl) t
  | ⟨3, _⟩, h => absurd rfl h

theorem body_obligation1 : Pipeline.BodyObligation (dat1 V c) defs₀ Variants.none () Set.univ := fun t => by
  simp (disch := decide) only [bigSep_W1, before1_in V c t]
  dsimp only [dat1, owns]
  sl_whnfR [defs₀, Defs.onTc]
  sl_unfold [cc1_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff1 inbₒ _⟩

end Cert.Kernel.Hand
-- ==== Proof.K.Seg1.lean ====
import proofs.«405037_j79285096284452_1_alg».proof.Proof.K.Seg0
import proofs.«405037_j79285096284452_1_alg».proof.Proof.K.Lin1

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ) (ρ : Dev nD → PrngReg)

abbrev W5 : Dev nD → Valuation τ sig (Elt F) := fun c => StableHlo.after hostOps1 (W4 m ρ c)
abbrev Vin1 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N :=
  Pipeline.withArrays_arr spec1 launch1.win.arr_inj c _ _ w
abbrev Vout1 : (c : Dev nD) → (b : Ref sig .tc) → Buf (Elt F) ((c : Thread nD τ).loc b) := fun c b => W6 m ρ c b
theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => Pipeline.withArrays_of_ne spec1 c _ _ b fun w e => hb (Finset.mem_image.mpr ⟨w, Finset.mem_univ _, e⟩)

theorem W6_keep (c : Dev nD) (b : Ref sig .tc) (hb : b ≠ Pipeline.arrRef spec1 3) :
    W6 m ρ c (Proc.devRef .tc b) = W5 m ρ c (Proc.devRef .tc b) :=
  keep_of spec1 launch1.win.arr_inj c _ _ b fun w e => ((dat1 (Vin1 m ρ) c).arrAt_in w
    (match w, e with | ⟨0, _⟩, _ | ⟨1, _⟩, _ | ⟨2, _⟩, _ => rfl | ⟨3, _⟩, e => absurd e.symm hb) _).trans (A_eq1 (Vin1 m ρ) c w)

theorem W5_keep (c : Dev nD) (b : Ref sig .tc) (hb : b ∉ hostOps1_W) :
    W5 m ρ c (Proc.devRef .tc b) = W4 m ρ c (Proc.devRef .tc b) :=
  StableHlo.after_of_writes_sub hostOps1 _ hostOps1_writes hb

end Cert.Kernel.Hand

end
-- ==== Proof.LibWhole.lean ====
import Idealize.ShloMosaic.Lib.Pipeline.Value

namespace Cert

open Idealize.ShloMosaic

theorem zeroOff : (![0, 0] : Fin 2 → Nat) = fun _ => 0 := by decide

variable {Val : EltTy → Type} {sg : RefSig} {κ : Kind} {sp : Space} {d : Fin 2 → Nat} {e : EltTy} (v : View sg κ sp ⟨2, d⟩ e)
  (f : v.ty.Contents Val) (inb : ∀ a, (![0, 0] : Fin 2 → Nat) a + (⟨2, d⟩ : Shape).size a ≤ (⟨2, d⟩ : Shape).size a)

theorem readAt_all2 : v.readAt Val (Rect.unit (s := ⟨2, d⟩) ![0, 0] (⟨2, d⟩ : Shape).size inb).toLoadRect f = v.read Val f :=
  View.ld_unit_zero zeroOff inb _

theorem read_writes_all2 [∀ e, Nonempty (Val e)] (w : (⟨2, d⟩ : Shape).Idx → Val e) (L : List (View.Piece Val ⟨2, d⟩ e)) :
    v.read Val (v.writes Val f (⟨Rect.unit (s := ⟨2, d⟩) ![0, 0] (⟨2, d⟩ : Shape).size inb, w⟩ :: L)) = w := by
  rw [View.read_writes_eq_canon v f _ fun y => ⟨⟨Rect.unit (s := ⟨2, d⟩) ![0, 0] (⟨2, d⟩ : Shape).size inb, w⟩, List.mem_cons_self ..,
    View.mem_set_unit_zero zeroOff inb y⟩, View.canon_cons_unit_zero zeroOff]

end Cert
-- ==== Proof.K.Agg2.lean ====
import proofs.«405037_j79285096284452_1_alg».proof.Proof.LibWhole
import proofs.«405037_j79285096284452_1_alg».proof.Proof.Gen.Kernel.Launch
import proofs.«405037_j79285096284452_1_alg».proof.Proof.Gen.Kernel.Skeleton
import proofs.«405037_j79285096284452_1_alg».proof.Proof.Gen.Kernel.Points
import Idealize.ShloMosaic.Lib.Pipeline.TableIdle

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev c2_0 (i : grid2.Coords) : Prop := (Scalar.cmpi .ne (Scalar.extui (Scalar.cmpi .eq (BitVec.ofNat 32 (i 1).val) 0#32)) 0#32) = 1#1

theorem hc2_0 : ∀ t : Fin grid2.N, c2_0 (grid2.coords t) ↔ t.val % 4 = 0 := by decide +kernel

theorem hc2_1 : ∀ t : Fin grid2.N, k2_cond2 (grid2.coords t) = 1#1 ↔ t.val % 4 = 3 := by decide +kernel

theorem idle2_3 : ∀ t : Fin grid2.N, t.val % 4 ≠ 3 → idle2 3 (grid2.coords t) = true := by decide +kernel

theorem live2_3 : ∀ t : Fin cfg2.N, t.val % 4 = 3 → cfg2.idle 3 (grid2.coords t) = false :=
  (by decide +kernel : ∀ t : Fin grid2.N, t.val % 4 = 3 → idle2 3 (grid2.coords t) = false)

theorem noflush2_3 (t : Fin cfg2.N) (h : t.val % 4 ≠ 3) : (cfg2.win 3).flush t = false :=
  Bool.eq_false_iff.mpr (mt (flush2_3 t).mp h)

section
variable (c : Dev nD) (E : Set ℕ) (i : grid2.Coords)
  (arg2 : Memref sig .tc .vmem S1280x2560 .bf16) (harg2 : arg2.IsWhole) (arg3 : Memref sig .tc .vmem S2560x128 .bf16) (harg3 : arg3.IsWhole)
  (arg4 : Memref sig .tc .vmem S1x128 .f32) (harg4 : arg4.IsWhole) (arg5 : Memref sig .tc .vmem S1280x128 .f32) (harg5 : arg5.IsWhole)
  (arg6 : Memref sig .tc .vmem S1280x128 .f32) (harg6 : arg6.IsWhole)
  (x0 : Vec F S1280x2560 .bf16) (x1 : Vec F S2560x128 .bf16) (x2 : Vec F S1x128 .f32) (d s : Vec F S1280x128 .f32)

private abbrev Tri (K : PUnit → sProp 𝕄) (acc out : Vec F S1280x128 .f32) : Prop :=
  iprop(owns c.tc arg2 fullShare x0 ∗ owns c.tc arg3 fullShare x1 ∗ owns c.tc arg4 fullShare x2 ∗ owns c.tc arg5 fullShare d
      ∗ owns c.tc arg6 fullShare s
      ∗ (iprop(owns c.tc arg2 fullShare x0 ∗ owns c.tc arg3 fullShare x1 ∗ owns c.tc arg4 fullShare x2 ∗ owns c.tc arg5 fullShare out
          ∗ owns c.tc arg6 fullShare acc) -∗ K ⟨⟩))
    ⊢ wp frame (wpE (defs₀ (F := F)) Variants.none c none) E (cc2_kernel i arg2 harg2 arg3 harg3 arg4 harg4 arg5 harg5 arg6 harg6) K

theorem sound_kernel2_A (K : PUnit → sProp 𝕄) (hc0 : c2_0 i) (hc1 : ¬k2_cond2 i = 1#1) :
    Tri c E i arg2 harg2 arg3 harg3 arg4 harg4 arg5 harg5 arg6 harg6 x0 x1 x2 d s K (k2_pay2 k2_pay1 x0 x1) d := by
  unfold Tri; simp only [cc2_kernel_eq_skeleton]; unfold cc2_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, View.readCov_cons_toLoadRect, readAt_all2, readAt_all2]

theorem sound_kernel2_B (K : PUnit → sProp 𝕄) (hc0 : ¬c2_0 i) (hc1 : ¬k2_cond2 i = 1#1) :
    Tri c E i arg2 harg2 arg3 harg3 arg4 harg4 arg5 harg5 arg6 harg6 x0 x1 x2 d s K (k2_pay2 s x0 x1) d := by
  unfold Tri; simp only [cc2_kernel_eq_skeleton]; unfold cc2_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, readAt_all2, readAt_all2, readAt_all2]

theorem sound_kernel2_C (K : PUnit → sProp 𝕄) (hc0 : ¬c2_0 i) (hc1 : k2_cond2 i = 1#1) :
    Tri c E i arg2 harg2 arg3 harg3 arg4 harg4 arg5 harg5 arg6 harg6 x0 x1 x2 d s K (k2_pay2 s x0 x1) (k2_pay3 (k2_pay2 s x0 x1) x2) := by
  unfold Tri; simp only [cc2_kernel_eq_skeleton]; unfold cc2_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]
  · iexists _; iframe; ipureintro
    sl_unfold_run_names
    rw [read_writes_all2, View.readCov_cons_toLoadRect, readAt_all2, readAt_all2, readAt_all2, readAt_all2]
  iexists _; iframe; ipureintro
  sl_unfold_run_names
  rw [read_writes_all2, readAt_all2, readAt_all2, readAt_all2]

end

def accStep2 (c : Dev nD) (n : ℕ) (prev : Vec F S1280x128 .f32) : Vec F S1280x128 .f32 :=
  if h : n < cfg2.N then k2_pay2 (if n % 4 = 0 then k2_pay1 else prev) (iblk2 V c 0 ⟨n, h⟩) (iblk2 V c 1 ⟨n, h⟩) else prev
def acc2 (c : Dev nD) : ℕ → Vec F S1280x128 .f32
  | 0 => accStep2 V c 0 k2_pay1
  | n + 1 => accStep2 V c (n + 1) (acc2 c n)
theorem acc2_reset (c : Dev nD) (n : ℕ) (hn : n < cfg2.N) (h0 : n % 4 = 0) :
    acc2 V c n = k2_pay2 k2_pay1 (iblk2 V c 0 ⟨n, hn⟩) (iblk2 V c 1 ⟨n, hn⟩) := by
  cases n <;> (unfold acc2 accStep2; rw [dif_pos hn, if_pos h0])
theorem acc2_step (c : Dev nD) (n : ℕ) (hn : n < cfg2.N) (h0 : n % 4 ≠ 0) :
    acc2 V c n = k2_pay2 (acc2 V c (n - 1)) (iblk2 V c 0 ⟨n, hn⟩) (iblk2 V c 1 ⟨n, hn⟩) := by
  cases n with
  | zero => exact absurd rfl h0
  | succ n => rw [Nat.add_sub_cancel, acc2, accStep2, dif_pos hn, if_neg h0]

def Phi2 (c : Dev nD) (n : ℕ) : sProp 𝕄 :=
  iprop(∃ f : Buf (Elt F) ((c : Thread nD τ).loc cc2_scratch0), ⌜n % 4 ≠ 0 → f = acc2 V c (n - 1)⌝
    ∗ (((c : Thread nD τ).loc cc2_scratch0) ↦{fullShare} f)
    ∗ Pipeline.scopedRestBut (Ix := Unit) (Name := ℕ) (U := UR sig nD τ) (Lvl := ℕ) (Val := Elt F) spec2 c [cc2_scratch0]
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val) (iblk2 V c 2 t)
  Φ t := Phi2 V c t.val
  q _ := fullShare
  owed _ := 0

theorem A_eq2 (c : Dev nD) (w : Fin cfg2.W) : (dat2 V c).A w = V c (Pipeline.arrRef spec2 w) :=
  rfl

theorem after2_3 (c : Dev nD) (t : Fin cfg2.N) : (dat2 V c).after 3 t = k2_pay3 (acc2 V c t.val) (iblk2 V c 2 t) := rfl

theorem before2_in (c : Dev nD) (t : Fin cfg2.N) :
    (∀ d, (dat2 V c).before 0 t d = iblk2 V c 0 t) ∧ (∀ d, (dat2 V c).before 1 t d = iblk2 V c 1 t)
      ∧ ∀ d, (dat2 V c).before 2 t d = iblk2 V c 2 t := by
  refine ⟨?_, ?_, ?_⟩ <;>
    exact fun d => (dat2 V c).before_in_eq_fetched _ rfl (fun _ => rfl) (fun _ _ _ => rfl) (fun _ => rfl) t d

theorem leaves2_3_live (c : Dev nD) (t : Fin cfg2.N) (h : t.val % 4 = 3) :
    (dat2 V c).leavesExact 3 t = owns c.tc (st2_3 t) fullShare (k2_pay3 (acc2 V c t.val) (iblk2 V c 2 t)) := by
  rw [← after2_3]; unfold Dat.leavesExact; rw [live2_3 t h]

theorem sound_body2 (c : Dev nD) (t : Fin cfg2.N) :
    iprop((dat2 V c).Φ t.castSucc ∗ (dat2 V c).owesAt () t.castSucc
      ∗ (∃ d, owns c.tc (st2_0 t) fullShare ((dat2 V c).before 0 t d))
      ∗ (∃ d, owns c.tc (st2_1 t) fullShare ((dat2 V c).before 1 t d))
      ∗ (∃ d, owns c.tc (st2_2 t) fullShare ((dat2 V c).before 2 t d))
      ∗ (∃ d, owns c.tc (st2_3 t) fullShare ((dat2 V c).before 3 t d)))
    ⊢ wp frame (wpE (defs₀ (F := F)) Variants.none c none) Set.univ (bodyAt2 t) fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t) := by
  unfold bodyAt2
  simp only [before2_in V c]
  rw [show (dat2 V c).owesAt () t.succ = (dat2 V c).owesAt () t.castSucc from rfl,
    show (dat2 V c).Φ t.succ = Phi2 V c (t.val + 1) from rfl,
    show (dat2 V c).Φ t.castSucc = Phi2 V c t.val from rfl,
    show (dat2 V c).leavesExact 0 t = owns c.tc (st2_0 t) fullShare (iblk2 V c 0 t) from rfl,
    show (dat2 V c).leavesExact 1 t = owns c.tc (st2_1 t) fullShare (iblk2 V c 1 t) from rfl,
    show (dat2 V c).leavesExact 2 t = owns c.tc (st2_2 t) fullShare (iblk2 V c 2 t) from rfl]
  unfold Phi2
  simp only [← owns_whole]
  by_cases h0 : t.val % 4 = 0
  · have h3 : t.val % 4 ≠ 3 := by omega
    rw [Dat.leavesExact_idle (dat2 V c) 3 t (idle2_3 t h3) (noflush2_3 t h3)]
    iintro ⟨⟨%f, -, HS, HR, Hg⟩, Ho, ⟨%d0, H0⟩, ⟨%d1, H1⟩, ⟨%d2, H2⟩, ⟨%d3, H3⟩⟩
    iapply (sound_kernel2_A c _ _ _ _ _ _ _ _ _ _ _ _ (iblk2 V c 0 t) (iblk2 V c 1 t) (iblk2 V c 2 t) _ f _ ((hc2_0 t).mpr h0) (mt (hc2_1 t).mp h3))
    iframe H0 H1 H2 H3 HS
    iintro ⟨H0, H1, H2, H3, HS⟩
    isplitl [HS HR Hg]; · iexists _; iframe; ipureintro; exact fun _ => (acc2_reset V c t.val t.isLt h0).symm
    iframe; iexists d3; iexact H3
  · rw [exists_held h0]
    by_cases h3 : t.val % 4 = 3
    · rw [leaves2_3_live V c t h3, acc2_step V c t.val t.isLt h0]
      iintro ⟨⟨HS, HR, Hg⟩, Ho, ⟨%d0, H0⟩, ⟨%d1, H1⟩, ⟨%d2, H2⟩, ⟨%d3, H3⟩⟩
      iapply (sound_kernel2_C c _ _ _ _ _ _ _ _ _ _ _ _ (iblk2 V c 0 t) (iblk2 V c 1 t) (iblk2 V c 2 t) _ (acc2 V c (t.val - 1)) _
        (mt (hc2_0 t).mp h0) ((hc2_1 t).mpr h3))
      iframe H0 H1 H2 H3 HS
      iintro ⟨H0, H1, H2, H3, HS⟩
      isplitl [HS HR Hg]; · iexists _; iframe; ipureintro; exact fun _ => (acc2_step V c t.val t.isLt h0).symm
      iframe
    · rw [Dat.leavesExact_idle (dat2 V c) 3 t (idle2_3 t h3) (noflush2_3 t h3)]
      iintro ⟨⟨HS, HR, Hg⟩, Ho, ⟨%d0, H0⟩, ⟨%d1, H1⟩, ⟨%d2, H2⟩, ⟨%d3, H3⟩⟩
      iapply (sound_kernel2_B c _ _ _ _ _ _ _ _ _ _ _ _ (iblk2 V c 0 t) (iblk2 V c 1 t) (iblk2 V c 2 t) _ (acc2 V c (t.val - 1)) _
        (mt (hc2_0 t).mp h0) (mt (hc2_1 t).mp h3))
      iframe H0 H1 H2 H3 HS
      iintro ⟨H0, H1, H2, H3, HS⟩
      isplitl [HS HR Hg]; · iexists _; iframe; ipureintro; exact fun _ => (acc2_step V c t.val t.isLt h0).symm
      iframe; iexists d3; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Phi2 V c 0 from rfl, scopedRest2_split]
  unfold Phi2
  iintro ⟨Hg, ⟨%f, HS⟩, HR⟩
  iexists f; iframe
  ipureintro; exact (absurd (Nat.zero_mod 4) ·)

theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c cfg2.N from rfl, scopedRest2_split]
  unfold Phi2
  iintro ⟨%f, -, HS, HR, Hg⟩
  iframe Hg HR; iexists f; iexact HS

end Cert.Kernel.Hand

end
-- ==== Proof.K.Seg2.lean ====
import proofs.«405037_j79285096284452_1_alg».proof.Proof.K.Seg1
import proofs.«405037_j79285096284452_1_alg».proof.Proof.K.Agg2

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ) (ρ : Dev nD → PrngReg)

abbrev W7 : Dev nD → Valuation τ sig (Elt F) := fun c => StableHlo.after hostOps2 (W6 m ρ c)
abbrev Vin2 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N :=
  Pipeline.withArrays_arr spec2 launch2.win.arr_inj c _ _ w
abbrev Vout2 : (c : Dev nD) → (b : Ref sig .tc) → Buf (Elt F) ((c : Thread nD τ).loc b) := fun c b => W8 m ρ c b
theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => Pipeline.withArrays_of_ne spec2 c _ _ b fun w e => hb (Finset.mem_image.mpr ⟨w, Finset.mem_univ _, e⟩)

theorem W8_keep (c : Dev nD) (b : Ref sig .tc) (hb : b ≠ Pipeline.arrRef spec2 3) :
    W8 m ρ c (Proc.devRef .tc b) = W7 m ρ c (Proc.devRef .tc b) :=
  keep_of spec2 launch2.win.arr_inj c _ _ b fun w e => ((dat2 (Vin2 m ρ) c).arrAt_in w
    (match w, e with | ⟨0, _⟩, _ | ⟨1, _⟩, _ | ⟨2, _⟩, _ => rfl | ⟨3, _⟩, e => absurd e.symm hb) _).trans (A_eq2 (Vin2 m ρ) c w)

theorem W7_keep (c : Dev nD) (b : Ref sig .tc) (hb : b ∉ hostOps2_W) :
    W7 m ρ c (Proc.devRef .tc b) = W6 m ρ c (Proc.devRef .tc b) :=
  StableHlo.after_of_writes_sub hostOps2 _ hostOps2_writes hb

end Cert.Kernel.Hand

end
-- ==== Proof.K.Lin3.lean ====
import proofs.«405037_j79285096284452_1_alg».proof.Proof.Gen.Kernel.Launch
import proofs.«405037_j79285096284452_1_alg».proof.Proof.Gen.Kernel.Skeleton
import Idealize.ShloMosaic.Lib.Pipeline.Value
import Idealize.ShloMosaic.Lib.Tactic

noncomputable section

namespace Cert.Kernel.Hand

open Cert.Kernel.Gen Idealize.ShloMosaic TcCoe Idealize.SL.RA

variable {F : FTy → Type} [FloatOps F]
  (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

local notation "Sₒ" => S1280x128
local notation "eₒ" => EltTy.bf16
local notation "inbₒ" => inb_S1280x128_S1280x128_0_0

variable (x0 : Vec F S1280x128 .f32) (x1 : Vec F S128x128 .f32) (x2 : Vec F S1x128 .f32)

def out3_3 : Vec F Sₒ eₒ :=
  View.canon [⟨.unit ![0, 0] _ inbₒ, k3_pay1 (View.ld x0 (.unit ![0, 0] _ inb_S1280x128_S1280x128_0_0))
    (View.ld x1 (.unit ![0, 0] _ inb_S128x128_S128x128_0_0)) (View.ld x2 (.unit ![0, 0] _ inb_S1x128_S1x128_0_0))⟩]

theorem zeroOff3 : (![0, 0] : Fin 2 → Nat) = fun _ => 0 := by decide

theorem out3_3_eq : out3_3 x0 x1 x2 = k3_pay1 x0 x1 x2 := by
  rw [out3_3, View.canon_unit_zero zeroOff3, View.ld_unit_zero zeroOff3, View.ld_unit_zero zeroOff3, View.ld_unit_zero zeroOff3]

def dat3 : Pipeline.Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (w : Fin cfg3.W) : (dat3 V c).A w = V c (Pipeline.arrRef spec3 w) := rfl

theorem after3_3 (t : Fin cfg3.N) :
    (dat3 V c).after 3 t = out3_3 (iblk3 V c 0 t) (iblk3 V c 1 t) (iblk3 V c 2 t) := by dsimp only [dat3]

theorem before3_in (t : Fin cfg3.N) : ∀ w : Fin cfg3.W, w ≠ 3 → ∀ d, (dat3 V c).before w t d = (dat3 V c).after w t
  | ⟨0, _⟩, _ | ⟨1, _⟩, _ | ⟨2, _⟩, _ => (dat3 V c).before_in_eq_fetched _ rfl (fun _ => rfl) (fun _ _ _ => rfl) (fun _ => rfl) t
  | ⟨3, _⟩, h => absurd rfl h

theorem body_obligation3 : Pipeline.BodyObligation (dat3 V c) defs₀ Variants.none () Set.univ := fun t => by
  simp (disch := decide) only [bigSep_W3, before3_in V c t]
  dsimp only [dat3, owns]
  sl_whnfR [defs₀, Defs.onTc]
  sl_unfold [cc3_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff3 inbₒ _⟩

end Cert.Kernel.Hand
-- ==== Proof.K.Seg3.lean ====
import proofs.«405037_j79285096284452_1_alg».proof.Proof.K.Seg2
import proofs.«405037_j79285096284452_1_alg».proof.Proof.K.Lin3

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ) (ρ : Dev nD → PrngReg)

abbrev W9 : Dev nD → Valuation τ sig (Elt F) := fun c => StableHlo.after hostOps3 (W8 m ρ c)
abbrev Vin3 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (Vin3 m ρ) c).arrAt w cfg3.N
theorem W10_arr (c : Dev nD) (w : Fin cfg3.W) :
    W10 m ρ c (Proc.devRef .tc (Pipeline.arrRef spec3 w)) = (dat3 (Vin3 m ρ) c).arrAt w cfg3.N :=
  Pipeline.withArrays_arr spec3 launch3.win.arr_inj c _ _ w
abbrev Vout3 : (c : Dev nD) → (b : Ref sig .tc) → Buf (Elt F) ((c : Thread nD τ).loc b) := fun c b => W10 m ρ c b
theorem hF3 (c : Dev nD) (w : Fin cfg3.W) : (dat3 (Vin3 m ρ) c).arrAt w cfg3.N = Vout3 m ρ c (Pipeline.arrRef spec3 w) :=
  (W10_arr m ρ c w).symm
theorem hrest3 (c : Dev nD) : ∀ b, b ∉ Finset.univ.image (Pipeline.arrRef spec3) → Vout3 m ρ c b = Vin3 m ρ c b :=
  fun b hb => Pipeline.withArrays_of_ne spec3 c _ _ b fun w e => hb (Finset.mem_image.mpr ⟨w, Finset.mem_univ _, e⟩)

theorem W10_keep (c : Dev nD) (b : Ref sig .tc) (hb : b ≠ Pipeline.arrRef spec3 3) :
    W10 m ρ c (Proc.devRef .tc b) = W9 m ρ c (Proc.devRef .tc b) :=
  keep_of spec3 launch3.win.arr_inj c _ _ b fun w e => ((dat3 (Vin3 m ρ) c).arrAt_in w
    (match w, e with | ⟨0, _⟩, _ | ⟨1, _⟩, _ | ⟨2, _⟩, _ => rfl | ⟨3, _⟩, e => absurd e.symm hb) _).trans (A_eq3 (Vin3 m ρ) c w)

theorem W9_keep (c : Dev nD) (b : Ref sig .tc) (hb : b ∉ hostOps3_W) :
    W9 m ρ c (Proc.devRef .tc b) = W8 m ρ c (Proc.devRef .tc b) :=
  StableHlo.after_of_writes_sub hostOps3 _ hostOps3_writes hb

end Cert.Kernel.Hand

end
-- ==== Proof.K.Agg4.lean ====
import proofs.«405037_j79285096284452_1_alg».proof.Proof.LibWhole
import proofs.«405037_j79285096284452_1_alg».proof.Proof.Gen.Kernel.Launch
import proofs.«405037_j79285096284452_1_alg».proof.Proof.Gen.Kernel.Skeleton
import proofs.«405037_j79285096284452_1_alg».proof.Proof.Gen.Kernel.Points
import Idealize.ShloMosaic.Lib.Pipeline.TableIdle

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev c4_0 (i : grid4.Coords) : Prop := (Scalar.cmpi .ne (Scalar.extui (Scalar.cmpi .eq (BitVec.ofNat 32 (i 1).val) 0#32)) 0#32) = 1#1

theorem hc4_0 : ∀ t : Fin grid4.N, c4_0 (grid4.coords t) ↔ t.val % 4 = 0 := by decide +kernel

theorem hc4_1 : ∀ t : Fin grid4.N, k4_cond2 (grid4.coords t) = 1#1 ↔ t.val % 4 = 3 := by decide +kernel

theorem idle4_3 : ∀ t : Fin grid4.N, t.val % 4 ≠ 3 → idle4 3 (grid4.coords t) = true := by decide +kernel

theorem live4_3 : ∀ t : Fin cfg4.N, t.val % 4 = 3 → cfg4.idle 3 (grid4.coords t) = false :=
  (by decide +kernel : ∀ t : Fin grid4.N, t.val % 4 = 3 → idle4 3 (grid4.coords t) = false)

theorem noflush4_3 (t : Fin cfg4.N) (h : t.val % 4 ≠ 3) : (cfg4.win 3).flush t = false :=
  Bool.eq_false_iff.mpr (mt (flush4_3 t).mp h)

section
variable (c : Dev nD) (E : Set ℕ) (i : grid4.Coords)
  (arg2 : Memref sig .tc .vmem S1280x2560 .bf16) (harg2 : arg2.IsWhole) (arg3 : Memref sig .tc .vmem S2560x128 .bf16) (harg3 : arg3.IsWhole)
  (arg4 : Memref sig .tc .vmem S1x128 .f32) (harg4 : arg4.IsWhole) (arg5 : Memref sig .tc .vmem S1280x128 .f32) (harg5 : arg5.IsWhole)
  (arg6 : Memref sig .tc .vmem S1280x128 .f32) (harg6 : arg6.IsWhole)
  (x0 : Vec F S1280x2560 .bf16) (x1 : Vec F S2560x128 .bf16) (x2 : Vec F S1x128 .f32) (d s : Vec F S1280x128 .f32)

private abbrev Tri (K : PUnit → sProp 𝕄) (acc out : Vec F S1280x128 .f32) : Prop :=
  iprop(owns c.tc arg2 fullShare x0 ∗ owns c.tc arg3 fullShare x1 ∗ owns c.tc arg4 fullShare x2 ∗ owns c.tc arg5 fullShare d
      ∗ owns c.tc arg6 fullShare s
      ∗ (iprop(owns c.tc arg2 fullShare x0 ∗ owns c.tc arg3 fullShare x1 ∗ owns c.tc arg4 fullShare x2 ∗ owns c.tc arg5 fullShare out
          ∗ owns c.tc arg6 fullShare acc) -∗ K ⟨⟩))
    ⊢ wp frame (wpE (defs₀ (F := F)) Variants.none c none) E (cc4_kernel i arg2 harg2 arg3 harg3 arg4 harg4 arg5 harg5 arg6 harg6) K

theorem sound_kernel4_A (K : PUnit → sProp 𝕄) (hc0 : c4_0 i) (hc1 : ¬k4_cond2 i = 1#1) :
    Tri c E i arg2 harg2 arg3 harg3 arg4 harg4 arg5 harg5 arg6 harg6 x0 x1 x2 d s K (k4_pay2 k4_pay1 x0 x1) d := by
  unfold Tri; simp only [cc4_kernel_eq_skeleton]; unfold cc4_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, View.readCov_cons_toLoadRect, readAt_all2, readAt_all2]

theorem sound_kernel4_B (K : PUnit → sProp 𝕄) (hc0 : ¬c4_0 i) (hc1 : ¬k4_cond2 i = 1#1) :
    Tri c E i arg2 harg2 arg3 harg3 arg4 harg4 arg5 harg5 arg6 harg6 x0 x1 x2 d s K (k4_pay2 s x0 x1) d := by
  unfold Tri; simp only [cc4_kernel_eq_skeleton]; unfold cc4_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, readAt_all2, readAt_all2, readAt_all2]

theorem sound_kernel4_C (K : PUnit → sProp 𝕄) (hc0 : ¬c4_0 i) (hc1 : k4_cond2 i = 1#1) :
    Tri c E i arg2 harg2 arg3 harg3 arg4 harg4 arg5 harg5 arg6 harg6 x0 x1 x2 d s K (k4_pay2 s x0 x1) (k4_pay3 (k4_pay2 s x0 x1) x2) := by
  unfold Tri; simp only [cc4_kernel_eq_skeleton]; unfold cc4_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]
  · iexists _; iframe; ipureintro
    sl_unfold_run_names
    rw [read_writes_all2, View.readCov_cons_toLoadRect, readAt_all2, readAt_all2, readAt_all2, readAt_all2]
  iexists _; iframe; ipureintro
  sl_unfold_run_names
  rw [read_writes_all2, readAt_all2, readAt_all2, readAt_all2]

end

def accStep4 (c : Dev nD) (n : ℕ) (prev : Vec F S1280x128 .f32) : Vec F S1280x128 .f32 :=
  if h : n < cfg4.N then k4_pay2 (if n % 4 = 0 then k4_pay1 else prev) (iblk4 V c 0 ⟨n, h⟩) (iblk4 V c 1 ⟨n, h⟩) else prev
def acc4 (c : Dev nD) : ℕ → Vec F S1280x128 .f32
  | 0 => accStep4 V c 0 k4_pay1
  | n + 1 => accStep4 V c (n + 1) (acc4 c n)
theorem acc4_reset (c : Dev nD) (n : ℕ) (hn : n < cfg4.N) (h0 : n % 4 = 0) :
    acc4 V c n = k4_pay2 k4_pay1 (iblk4 V c 0 ⟨n, hn⟩) (iblk4 V c 1 ⟨n, hn⟩) := by
  cases n <;> (unfold acc4 accStep4; rw [dif_pos hn, if_pos h0])
theorem acc4_step (c : Dev nD) (n : ℕ) (hn : n < cfg4.N) (h0 : n % 4 ≠ 0) :
    acc4 V c n = k4_pay2 (acc4 V c (n - 1)) (iblk4 V c 0 ⟨n, hn⟩) (iblk4 V c 1 ⟨n, hn⟩) := by
  cases n with
  | zero => exact absurd rfl h0
  | succ n => rw [Nat.add_sub_cancel, acc4, accStep4, dif_pos hn, if_neg h0]

def Phi4 (c : Dev nD) (n : ℕ) : sProp 𝕄 :=
  iprop(∃ f : Buf (Elt F) ((c : Thread nD τ).loc cc4_scratch0), ⌜n % 4 ≠ 0 → f = acc4 V c (n - 1)⌝
    ∗ (((c : Thread nD τ).loc cc4_scratch0) ↦{fullShare} f)
    ∗ Pipeline.scopedRestBut (Ix := Unit) (Name := ℕ) (U := UR sig nD τ) (Lvl := ℕ) (Val := Elt F) spec4 c [cc4_scratch0]
    ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val) (iblk4 V c 2 t)
  Φ t := Phi4 V c t.val
  q _ := fullShare
  owed _ := 0

theorem A_eq4 (c : Dev nD) (w : Fin cfg4.W) : (dat4 V c).A w = V c (Pipeline.arrRef spec4 w) :=
  rfl

theorem after4_3 (c : Dev nD) (t : Fin cfg4.N) : (dat4 V c).after 3 t = k4_pay3 (acc4 V c t.val) (iblk4 V c 2 t) := rfl

theorem before4_in (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨?_, ?_, ?_⟩ <;>
    exact fun d => (dat4 V c).before_in_eq_fetched _ rfl (fun _ => rfl) (fun _ _ _ => rfl) (fun _ => rfl) t d

theorem leaves4_3_live (c : Dev nD) (t : Fin cfg4.N) (h : t.val % 4 = 3) :
    (dat4 V c).leavesExact 3 t = owns c.tc (st4_3 t) fullShare (k4_pay3 (acc4 V c t.val) (iblk4 V c 2 t)) := by
  rw [← after4_3]; unfold Dat.leavesExact; rw [live4_3 t h]

theorem sound_body4 (c : Dev nD) (t : Fin cfg4.N) :
    iprop((dat4 V c).Φ t.castSucc ∗ (dat4 V c).owesAt () t.castSucc
      ∗ (∃ d, owns c.tc (st4_0 t) fullShare ((dat4 V c).before 0 t d))
      ∗ (∃ d, owns c.tc (st4_1 t) fullShare ((dat4 V c).before 1 t d))
      ∗ (∃ d, owns c.tc (st4_2 t) fullShare ((dat4 V c).before 2 t d))
      ∗ (∃ d, owns c.tc (st4_3 t) fullShare ((dat4 V c).before 3 t d)))
    ⊢ wp frame (wpE (defs₀ (F := F)) Variants.none c none) Set.univ (bodyAt4 t) fun _ =>
      iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t) := by
  unfold bodyAt4
  simp only [before4_in V c]
  rw [show (dat4 V c).owesAt () t.succ = (dat4 V c).owesAt () t.castSucc from rfl,
    show (dat4 V c).Φ t.succ = Phi4 V c (t.val + 1) from rfl,
    show (dat4 V c).Φ t.castSucc = Phi4 V c t.val from rfl,
    show (dat4 V c).leavesExact 0 t = owns c.tc (st4_0 t) fullShare (iblk4 V c 0 t) from rfl,
    show (dat4 V c).leavesExact 1 t = owns c.tc (st4_1 t) fullShare (iblk4 V c 1 t) from rfl,
    show (dat4 V c).leavesExact 2 t = owns c.tc (st4_2 t) fullShare (iblk4 V c 2 t) from rfl]
  unfold Phi4
  simp only [← owns_whole]
  by_cases h0 : t.val % 4 = 0
  · have h3 : t.val % 4 ≠ 3 := by omega
    rw [Dat.leavesExact_idle (dat4 V c) 3 t (idle4_3 t h3) (noflush4_3 t h3)]
    iintro ⟨⟨%f, -, HS, HR, Hg⟩, Ho, ⟨%d0, H0⟩, ⟨%d1, H1⟩, ⟨%d2, H2⟩, ⟨%d3, H3⟩⟩
    iapply (sound_kernel4_A c _ _ _ _ _ _ _ _ _ _ _ _ (iblk4 V c 0 t) (iblk4 V c 1 t) (iblk4 V c 2 t) _ f _ ((hc4_0 t).mpr h0) (mt (hc4_1 t).mp h3))
    iframe H0 H1 H2 H3 HS
    iintro ⟨H0, H1, H2, H3, HS⟩
    isplitl [HS HR Hg]; · iexists _; iframe; ipureintro; exact fun _ => (acc4_reset V c t.val t.isLt h0).symm
    iframe; iexists d3; iexact H3
  · rw [exists_held h0]
    by_cases h3 : t.val % 4 = 3
    · rw [leaves4_3_live V c t h3, acc4_step V c t.val t.isLt h0]
      iintro ⟨⟨HS, HR, Hg⟩, Ho, ⟨%d0, H0⟩, ⟨%d1, H1⟩, ⟨%d2, H2⟩, ⟨%d3, H3⟩⟩
      iapply (sound_kernel4_C c _ _ _ _ _ _ _ _ _ _ _ _ (iblk4 V c 0 t) (iblk4 V c 1 t) (iblk4 V c 2 t) _ (acc4 V c (t.val - 1)) _
        (mt (hc4_0 t).mp h0) ((hc4_1 t).mpr h3))
      iframe H0 H1 H2 H3 HS
      iintro ⟨H0, H1, H2, H3, HS⟩
      isplitl [HS HR Hg]; · iexists _; iframe; ipureintro; exact fun _ => (acc4_step V c t.val t.isLt h0).symm
      iframe
    · rw [Dat.leavesExact_idle (dat4 V c) 3 t (idle4_3 t h3) (noflush4_3 t h3)]
      iintro ⟨⟨HS, HR, Hg⟩, Ho, ⟨%d0, H0⟩, ⟨%d1, H1⟩, ⟨%d2, H2⟩, ⟨%d3, H3⟩⟩
      iapply (sound_kernel4_B c _ _ _ _ _ _ _ _ _ _ _ _ (iblk4 V c 0 t) (iblk4 V c 1 t) (iblk4 V c 2 t) _ (acc4 V c (t.val - 1)) _
        (mt (hc4_0 t).mp h0) (mt (hc4_1 t).mp h3))
      iframe H0 H1 H2 H3 HS
      iintro ⟨H0, H1, H2, H3, HS⟩
      isplitl [HS HR Hg]; · iexists _; iframe; ipureintro; exact fun _ => (acc4_step V c t.val t.isLt h0).symm
      iframe; iexists d3; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, scopedRest4_split]
  unfold Phi4
  iintro ⟨Hg, ⟨%f, HS⟩, HR⟩
  iexists f; iframe
  ipureintro; exact (absurd (Nat.zero_mod 4) ·)

theorem hout4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c cfg4.N from rfl, scopedRest4_split]
  unfold Phi4
  iintro ⟨%f, -, HS, HR, Hg⟩
  iframe Hg HR; iexists f; iexact HS

end Cert.Kernel.Hand

end
-- ==== Proof.K.Seg4.lean ====
import proofs.«405037_j79285096284452_1_alg».proof.Proof.K.Seg3
import proofs.«405037_j79285096284452_1_alg».proof.Proof.K.Agg4

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ) (ρ : Dev nD → PrngReg)

abbrev W11 : Dev nD → Valuation τ sig (Elt F) := fun c => StableHlo.after hostOps4 (W10 m ρ c)
abbrev Vin4 : (c : Dev nD) → (b : Ref sig .tc) → Buf (Elt F) ((c : Thread nD τ).loc b) := fun c b => W11 m ρ c b

def W12 (c : Dev nD) : Valuation τ sig (Elt F) :=
  Pipeline.withArrays spec4 c (W11 m ρ c) fun w => (dat4 (Vin4 m ρ) c).arrAt w cfg4.N
theorem W12_arr (c : Dev nD) (w : Fin cfg4.W) :
    W12 m ρ c (Proc.devRef .tc (Pipeline.arrRef spec4 w)) = (dat4 (Vin4 m ρ) c).arrAt w cfg4.N :=
  Pipeline.withArrays_arr spec4 launch4.win.arr_inj c _ _ w
abbrev Vout4 : (c : Dev nD) → (b : Ref sig .tc) → Buf (Elt F) ((c : Thread nD τ).loc b) := fun c b => W12 m ρ c b
theorem hF4 (c : Dev nD) (w : Fin cfg4.W) : (dat4 (Vin4 m ρ) c).arrAt w cfg4.N = Vout4 m ρ c (Pipeline.arrRef spec4 w) :=
  (W12_arr m ρ c w).symm
theorem hrest4 (c : Dev nD) : ∀ b, b ∉ Finset.univ.image (Pipeline.arrRef spec4) → Vout4 m ρ c b = Vin4 m ρ c b :=
  fun b hb => Pipeline.withArrays_of_ne spec4 c _ _ b fun w e => hb (Finset.mem_image.mpr ⟨w, Finset.mem_univ _, e⟩)

theorem W12_keep (c : Dev nD) (b : Ref sig .tc) (hb : b ≠ Pipeline.arrRef spec4 3) :
    W12 m ρ c (Proc.devRef .tc b) = W11 m ρ c (Proc.devRef .tc b) :=
  keep_of spec4 launch4.win.arr_inj c _ _ b fun w e => ((dat4 (Vin4 m ρ) c).arrAt_in w
    (match w, e with | ⟨0, _⟩, _ | ⟨1, _⟩, _ | ⟨2, _⟩, _ => rfl | ⟨3, _⟩, e => absurd e.symm hb) _).trans (A_eq4 (Vin4 m ρ) c w)

theorem W11_keep (c : Dev nD) (b : Ref sig .tc) (hb : b ∉ hostOps4_W) :
    W11 m ρ c (Proc.devRef .tc b) = W10 m ρ c (Proc.devRef .tc b) :=
  StableHlo.after_of_writes_sub hostOps4 _ hostOps4_writes hb

end Cert.Kernel.Hand

end
-- ==== Proof.K.Lin5.lean ====
import proofs.«405037_j79285096284452_1_alg».proof.Proof.Gen.Kernel.Launch
import proofs.«405037_j79285096284452_1_alg».proof.Proof.Gen.Kernel.Skeleton
import Idealize.ShloMosaic.Lib.Pipeline.Value
import Idealize.ShloMosaic.Lib.Tactic

noncomputable section

namespace Cert.Kernel.Hand

open Cert.Kernel.Gen Idealize.ShloMosaic TcCoe Idealize.SL.RA

variable {F : FTy → Type} [FloatOps F]
  (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

local notation "Sₒ" => S1280x128
local notation "eₒ" => EltTy.bf16
local notation "inbₒ" => inb_S1280x128_S1280x128_0_0

variable (x0 : Vec F S1280x128 .f32) (x1 : Vec F S128x128 .f32) (x2 : Vec F S1x128 .f32)

def out5_3 : Vec F Sₒ eₒ :=
  View.canon [⟨.unit ![0, 0] _ inbₒ, k5_pay1 (View.ld x0 (.unit ![0, 0] _ inb_S1280x128_S1280x128_0_0))
    (View.ld x1 (.unit ![0, 0] _ inb_S128x128_S128x128_0_0)) (View.ld x2 (.unit ![0, 0] _ inb_S1x128_S1x128_0_0))⟩]

theorem zeroOff5 : (![0, 0] : Fin 2 → Nat) = fun _ => 0 := by decide

theorem out5_3_eq : out5_3 x0 x1 x2 = k5_pay1 x0 x1 x2 := by
  rw [out5_3, View.canon_unit_zero zeroOff5, View.ld_unit_zero zeroOff5, View.ld_unit_zero zeroOff5, View.ld_unit_zero zeroOff5]

def dat5 : Pipeline.Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (w : Fin cfg5.W) : (dat5 V c).A w = V c (Pipeline.arrRef spec5 w) := rfl

theorem after5_3 (t : Fin cfg5.N) :
    (dat5 V c).after 3 t = out5_3 (iblk5 V c 0 t) (iblk5 V c 1 t) (iblk5 V c 2 t) := by dsimp only [dat5]

theorem before5_in (t : Fin cfg5.N) : ∀ w : Fin cfg5.W, w ≠ 3 → ∀ d, (dat5 V c).before w t d = (dat5 V c).after w t
  | ⟨0, _⟩, _ | ⟨1, _⟩, _ | ⟨2, _⟩, _ => (dat5 V c).before_in_eq_fetched _ rfl (fun _ => rfl) (fun _ _ _ => rfl) (fun _ => rfl) t
  | ⟨3, _⟩, h => absurd rfl h

theorem body_obligation5 : Pipeline.BodyObligation (dat5 V c) defs₀ Variants.none () Set.univ := fun t => by
  simp (disch := decide) only [bigSep_W5, before5_in V c t]
  dsimp only [dat5, owns]
  sl_whnfR [defs₀, Defs.onTc]
  sl_unfold [cc5_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff5 inbₒ _⟩

end Cert.Kernel.Hand
-- ==== Proof.K.Seg5.lean ====
import proofs.«405037_j79285096284452_1_alg».proof.Proof.K.Seg4
import proofs.«405037_j79285096284452_1_alg».proof.Proof.K.Lin5

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ) (ρ : Dev nD → PrngReg)

abbrev W13 : Dev nD → Valuation τ sig (Elt F) := fun c => StableHlo.after hostOps5 (W12 m ρ c)
abbrev Vin5 : (c : Dev nD) → (b : Ref sig .tc) → Buf (Elt F) ((c : Thread nD τ).loc b) := fun c b => W13 m ρ c b

def W14 (c : Dev nD) : Valuation τ sig (Elt F) :=
  Pipeline.withArrays spec5 c (W13 m ρ c) fun w => (dat5 (Vin5 m ρ) c).arrAt w cfg5.N
theorem W14_arr (c : Dev nD) (w : Fin cfg5.W) :
    W14 m ρ c (Proc.devRef .tc (Pipeline.arrRef spec5 w)) = (dat5 (Vin5 m ρ) c).arrAt w cfg5.N :=
  Pipeline.withArrays_arr spec5 launch5.win.arr_inj c _ _ w
abbrev Vout5 : (c : Dev nD) → (b : Ref sig .tc) → Buf (Elt F) ((c : Thread nD τ).loc b) := fun c b => W14 m ρ c b
theorem hF5 (c : Dev nD) (w : Fin cfg5.W) : (dat5 (Vin5 m ρ) c).arrAt w cfg5.N = Vout5 m ρ c (Pipeline.arrRef spec5 w) :=
  (W14_arr m ρ c w).symm
theorem hrest5 (c : Dev nD) : ∀ b, b ∉ Finset.univ.image (Pipeline.arrRef spec5) → Vout5 m ρ c b = Vin5 m ρ c b :=
  fun b hb => Pipeline.withArrays_of_ne spec5 c _ _ b fun w e => hb (Finset.mem_image.mpr ⟨w, Finset.mem_univ _, e⟩)

theorem W14_keep (c : Dev nD) (b : Ref sig .tc) (hb : b ≠ Pipeline.arrRef spec5 3) :
    W14 m ρ c (Proc.devRef .tc b) = W13 m ρ c (Proc.devRef .tc b) :=
  keep_of spec5 launch5.win.arr_inj c _ _ b fun w e => ((dat5 (Vin5 m ρ) c).arrAt_in w
    (match w, e with | ⟨0, _⟩, _ | ⟨1, _⟩, _ | ⟨2, _⟩, _ => rfl | ⟨3, _⟩, e => absurd e.symm hb) _).trans (A_eq5 (Vin5 m ρ) c w)

theorem W13_keep (c : Dev nD) (b : Ref sig .tc) (hb : b ∉ hostOps5_W) :
    W13 m ρ c (Proc.devRef .tc b) = W12 m ρ c (Proc.devRef .tc b) :=
  StableHlo.after_of_writes_sub hostOps5 _ hostOps5_writes hb

end Cert.Kernel.Hand

end
-- ==== Proof.K.Agg6.lean ====
import proofs.«405037_j79285096284452_1_alg».proof.Proof.LibWhole
import proofs.«405037_j79285096284452_1_alg».proof.Proof.Gen.Kernel.Launch
import proofs.«405037_j79285096284452_1_alg».proof.Proof.Gen.Kernel.Skeleton
import proofs.«405037_j79285096284452_1_alg».proof.Proof.Gen.Kernel.Points
import Idealize.ShloMosaic.Lib.Pipeline.TableIdle

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev c6_0 (i : grid6.Coords) : Prop := (Scalar.cmpi .ne (Scalar.extui (Scalar.cmpi .eq (BitVec.ofNat 32 (i 1).val) 0#32)) 0#32) = 1#1

theorem hc6_0 : ∀ t : Fin grid6.N, c6_0 (grid6.coords t) ↔ t.val % 4 = 0 := by decide +kernel

theorem hc6_1 : ∀ t : Fin grid6.N, k6_cond2 (grid6.coords t) = 1#1 ↔ t.val % 4 = 3 := by decide +kernel

theorem idle6_3 : ∀ t : Fin grid6.N, t.val % 4 ≠ 3 → idle6 3 (grid6.coords t) = true := by decide +kernel

theorem live6_3 : ∀ t : Fin cfg6.N, t.val % 4 = 3 → cfg6.idle 3 (grid6.coords t) = false :=
  (by decide +kernel : ∀ t : Fin grid6.N, t.val % 4 = 3 → idle6 3 (grid6.coords t) = false)

theorem noflush6_3 (t : Fin cfg6.N) (h : t.val % 4 ≠ 3) : (cfg6.win 3).flush t = false :=
  Bool.eq_false_iff.mpr (mt (flush6_3 t).mp h)

section
variable (c : Dev nD) (E : Set ℕ) (i : grid6.Coords)
  (arg2 : Memref sig .tc .vmem S1280x2560 .bf16) (harg2 : arg2.IsWhole) (arg3 : Memref sig .tc .vmem S2560x128 .bf16) (harg3 : arg3.IsWhole)
  (arg4 : Memref sig .tc .vmem S1x128 .f32) (harg4 : arg4.IsWhole) (arg5 : Memref sig .tc .vmem S1280x128 .f32) (harg5 : arg5.IsWhole)
  (arg6 : Memref sig .tc .vmem S1280x128 .f32) (harg6 : arg6.IsWhole)
  (x0 : Vec F S1280x2560 .bf16) (x1 : Vec F S2560x128 .bf16) (x2 : Vec F S1x128 .f32) (d s : Vec F S1280x128 .f32)

private abbrev Tri (K : PUnit → sProp 𝕄) (acc out : Vec F S1280x128 .f32) : Prop :=
  iprop(owns c.tc arg2 fullShare x0 ∗ owns c.tc arg3 fullShare x1 ∗ owns c.tc arg4 fullShare x2 ∗ owns c.tc arg5 fullShare d
      ∗ owns c.tc arg6 fullShare s
      ∗ (iprop(owns c.tc arg2 fullShare x0 ∗ owns c.tc arg3 fullShare x1 ∗ owns c.tc arg4 fullShare x2 ∗ owns c.tc arg5 fullShare out
          ∗ owns c.tc arg6 fullShare acc) -∗ K ⟨⟩))
    ⊢ wp frame (wpE (defs₀ (F := F)) Variants.none c none) E (cc6_kernel i arg2 harg2 arg3 harg3 arg4 harg4 arg5 harg5 arg6 harg6) K

theorem sound_kernel6_A (K : PUnit → sProp 𝕄) (hc0 : c6_0 i) (hc1 : ¬k6_cond2 i = 1#1) :
    Tri c E i arg2 harg2 arg3 harg3 arg4 harg4 arg5 harg5 arg6 harg6 x0 x1 x2 d s K (k6_pay2 k6_pay1 x0 x1) d := by
  unfold Tri; simp only [cc6_kernel_eq_skeleton]; unfold cc6_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, View.readCov_cons_toLoadRect, readAt_all2, readAt_all2]

theorem sound_kernel6_B (K : PUnit → sProp 𝕄) (hc0 : ¬c6_0 i) (hc1 : ¬k6_cond2 i = 1#1) :
    Tri c E i arg2 harg2 arg3 harg3 arg4 harg4 arg5 harg5 arg6 harg6 x0 x1 x2 d s K (k6_pay2 s x0 x1) d := by
  unfold Tri; simp only [cc6_kernel_eq_skeleton]; unfold cc6_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, readAt_all2, readAt_all2, readAt_all2]

theorem sound_kernel6_C (K : PUnit → sProp 𝕄) (hc0 : ¬c6_0 i) (hc1 : k6_cond2 i = 1#1) :
    Tri c E i arg2 harg2 arg3 harg3 arg4 harg4 arg5 harg5 arg6 harg6 x0 x1 x2 d s K (k6_pay2 s x0 x1) (k6_pay3 (k6_pay2 s x0 x1) x2) := by
  unfold Tri; simp only [cc6_kernel_eq_skeleton]; unfold cc6_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]
  · iexists _; iframe; ipureintro
    sl_unfold_run_names
    rw [read_writes_all2, View.readCov_cons_toLoadRect, readAt_all2, readAt_all2, readAt_all2, readAt_all2]
  iexists _; iframe; ipureintro
  sl_unfold_run_names
  rw [read_writes_all2, readAt_all2, readAt_all2, readAt_all2]

end

def accStep6 (c : Dev nD) (n : ℕ) (prev : Vec F S1280x128 .f32) : Vec F S1280x128 .f32 :=
  if h : n < cfg6.N then k6_pay2 (if n % 4 = 0 then k6_pay1 else prev) (iblk6 V c 0 ⟨n, h⟩) (iblk6 V c 1 ⟨n, h⟩) else prev
def acc6 (c : Dev nD) : ℕ → Vec F S1280x128 .f32
  | 0 => accStep6 V c 0 k6_pay1
  | n + 1 => accStep6 V c (n + 1) (acc6 c n)
theorem acc6_reset (c : Dev nD) (n : ℕ) (hn : n < cfg6.N) (h0 : n % 4 = 0) :
    acc6 V c n = k6_pay2 k6_pay1 (iblk6 V c 0 ⟨n, hn⟩) (iblk6 V c 1 ⟨n, hn⟩) := by
  cases n <;> (unfold acc6 accStep6; rw [dif_pos hn, if_pos h0])
theorem acc6_step (c : Dev nD) (n : ℕ) (hn : n < cfg6.N) (h0 : n % 4 ≠ 0) :
    acc6 V c n = k6_pay2 (acc6 V c (n - 1)) (iblk6 V c 0 ⟨n, hn⟩) (iblk6 V c 1 ⟨n, hn⟩) := by
  cases n with
  | zero => exact absurd rfl h0
  | succ n => rw [Nat.add_sub_cancel, acc6, accStep6, dif_pos hn, if_neg h0]

def Phi6 (c : Dev nD) (n : ℕ) : sProp 𝕄 :=
  iprop(∃ f : Buf (Elt F) ((c : Thread nD τ).loc cc6_scratch0), ⌜n % 4 ≠ 0 → f = acc6 V c (n - 1)⌝
    ∗ (((c : Thread nD τ).loc cc6_scratch0) ↦{fullShare} f)
    ∗ Pipeline.scopedRestBut (Ix := Unit) (Name := ℕ) (U := UR sig nD τ) (Lvl := ℕ) (Val := Elt F) spec6 c [cc6_scratch0]
    ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (acc6 V c t.val) (iblk6 V c 2 t)
  Φ t := Phi6 V c t.val
  q _ := fullShare
  owed _ := 0

theorem A_eq6 (c : Dev nD) (w : Fin cfg6.W) : (dat6 V c).A w = V c (Pipeline.arrRef spec6 w) :=
  rfl

theorem after6_3 (c : Dev nD) (t : Fin cfg6.N) : (dat6 V c).after 3 t = k6_pay3 (acc6 V c t.val) (iblk6 V c 2 t) := rfl

theorem before6_in (c : Dev nD) (t : Fin cfg6.N) :
    (∀ d, (dat6 V c).before 0 t d = iblk6 V c 0 t) ∧ (∀ d, (dat6 V c).before 1 t d = iblk6 V c 1 t)
      ∧ ∀ d, (dat6 V c).before 2 t d = iblk6 V c 2 t := by
  refine ⟨?_, ?_, ?_⟩ <;>
    exact fun d => (dat6 V c).before_in_eq_fetched _ rfl (fun _ => rfl) (fun _ _ _ => rfl) (fun _ => rfl) t d

theorem leaves6_3_live (c : Dev nD) (t : Fin cfg6.N) (h : t.val % 4 = 3) :
    (dat6 V c).leavesExact 3 t = owns c.tc (st6_3 t) fullShare (k6_pay3 (acc6 V c t.val) (iblk6 V c 2 t)) := by
  rw [← after6_3]; unfold Dat.leavesExact; rw [live6_3 t h]

theorem sound_body6 (c : Dev nD) (t : Fin cfg6.N) :
    iprop((dat6 V c).Φ t.castSucc ∗ (dat6 V c).owesAt () t.castSucc
      ∗ (∃ d, owns c.tc (st6_0 t) fullShare ((dat6 V c).before 0 t d))
      ∗ (∃ d, owns c.tc (st6_1 t) fullShare ((dat6 V c).before 1 t d))
      ∗ (∃ d, owns c.tc (st6_2 t) fullShare ((dat6 V c).before 2 t d))
      ∗ (∃ d, owns c.tc (st6_3 t) fullShare ((dat6 V c).before 3 t d)))
    ⊢ wp frame (wpE (defs₀ (F := F)) Variants.none c none) Set.univ (bodyAt6 t) fun _ =>
      iprop((dat6 V c).Φ t.succ ∗ (dat6 V c).owesAt () t.succ
        ∗ (dat6 V c).leavesExact 0 t ∗ (dat6 V c).leavesExact 1 t ∗ (dat6 V c).leavesExact 2 t ∗ (dat6 V c).leavesExact 3 t) := by
  unfold bodyAt6
  simp only [before6_in V c]
  rw [show (dat6 V c).owesAt () t.succ = (dat6 V c).owesAt () t.castSucc from rfl,
    show (dat6 V c).Φ t.succ = Phi6 V c (t.val + 1) from rfl,
    show (dat6 V c).Φ t.castSucc = Phi6 V c t.val from rfl,
    show (dat6 V c).leavesExact 0 t = owns c.tc (st6_0 t) fullShare (iblk6 V c 0 t) from rfl,
    show (dat6 V c).leavesExact 1 t = owns c.tc (st6_1 t) fullShare (iblk6 V c 1 t) from rfl,
    show (dat6 V c).leavesExact 2 t = owns c.tc (st6_2 t) fullShare (iblk6 V c 2 t) from rfl]
  unfold Phi6
  simp only [← owns_whole]
  by_cases h0 : t.val % 4 = 0
  · have h3 : t.val % 4 ≠ 3 := by omega
    rw [Dat.leavesExact_idle (dat6 V c) 3 t (idle6_3 t h3) (noflush6_3 t h3)]
    iintro ⟨⟨%f, -, HS, HR, Hg⟩, Ho, ⟨%d0, H0⟩, ⟨%d1, H1⟩, ⟨%d2, H2⟩, ⟨%d3, H3⟩⟩
    iapply (sound_kernel6_A c _ _ _ _ _ _ _ _ _ _ _ _ (iblk6 V c 0 t) (iblk6 V c 1 t) (iblk6 V c 2 t) _ f _ ((hc6_0 t).mpr h0) (mt (hc6_1 t).mp h3))
    iframe H0 H1 H2 H3 HS
    iintro ⟨H0, H1, H2, H3, HS⟩
    isplitl [HS HR Hg]; · iexists _; iframe; ipureintro; exact fun _ => (acc6_reset V c t.val t.isLt h0).symm
    iframe; iexists d3; iexact H3
  · rw [exists_held h0]
    by_cases h3 : t.val % 4 = 3
    · rw [leaves6_3_live V c t h3, acc6_step V c t.val t.isLt h0]
      iintro ⟨⟨HS, HR, Hg⟩, Ho, ⟨%d0, H0⟩, ⟨%d1, H1⟩, ⟨%d2, H2⟩, ⟨%d3, H3⟩⟩
      iapply (sound_kernel6_C c _ _ _ _ _ _ _ _ _ _ _ _ (iblk6 V c 0 t) (iblk6 V c 1 t) (iblk6 V c 2 t) _ (acc6 V c (t.val - 1)) _
        (mt (hc6_0 t).mp h0) ((hc6_1 t).mpr h3))
      iframe H0 H1 H2 H3 HS
      iintro ⟨H0, H1, H2, H3, HS⟩
      isplitl [HS HR Hg]; · iexists _; iframe; ipureintro; exact fun _ => (acc6_step V c t.val t.isLt h0).symm
      iframe
    · rw [Dat.leavesExact_idle (dat6 V c) 3 t (idle6_3 t h3) (noflush6_3 t h3)]
      iintro ⟨⟨HS, HR, Hg⟩, Ho, ⟨%d0, H0⟩, ⟨%d1, H1⟩, ⟨%d2, H2⟩, ⟨%d3, H3⟩⟩
      iapply (sound_kernel6_B c _ _ _ _ _ _ _ _ _ _ _ _ (iblk6 V c 0 t) (iblk6 V c 1 t) (iblk6 V c 2 t) _ (acc6 V c (t.val - 1)) _
        (mt (hc6_0 t).mp h0) (mt (hc6_1 t).mp h3))
      iframe H0 H1 H2 H3 HS
      iintro ⟨H0, H1, H2, H3, HS⟩
      isplitl [HS HR Hg]; · iexists _; iframe; ipureintro; exact fun _ => (acc6_step V c t.val t.isLt h0).symm
      iframe; iexists d3; iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) :
    iprop((∃ r, prngReg c r) ∗ Pipeline.scopedRest (Ix := Unit) (Name := ℕ) (U := UR sig nD τ) (Lvl := ℕ) (Val := Elt F) spec6 c)
      ⊢ (dat6 V c).Φ 0 := by
  rw [show (dat6 V c).Φ 0 = Phi6 V c 0 from rfl, scopedRest6_split]
  unfold Phi6
  iintro ⟨Hg, ⟨%f, HS⟩, HR⟩
  iexists f; iframe
  ipureintro; exact (absurd (Nat.zero_mod 4) ·)

theorem hout6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = Phi6 V c cfg6.N from rfl, scopedRest6_split]
  unfold Phi6
  iintro ⟨%f, -, HS, HR, Hg⟩
  iframe Hg HR; iexists f; iexact HS

end Cert.Kernel.Hand

end
-- ==== Proof.K.Seg6.lean ====
import proofs.«405037_j79285096284452_1_alg».proof.Proof.K.Seg5
import proofs.«405037_j79285096284452_1_alg».proof.Proof.K.Agg6

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ) (ρ : Dev nD → PrngReg)

abbrev W15 : Dev nD → Valuation τ sig (Elt F) := fun c => StableHlo.after hostOps6 (W14 m ρ c)
abbrev Vin6 : (c : Dev nD) → (b : Ref sig .tc) → Buf (Elt F) ((c : Thread nD τ).loc b) := fun c b => W15 m ρ c b

def W16 (c : Dev nD) : Valuation τ sig (Elt F) :=
  Pipeline.withArrays spec6 c (W15 m ρ c) fun w => (dat6 (Vin6 m ρ) c).arrAt w cfg6.N
theorem W16_arr (c : Dev nD) (w : Fin cfg6.W) :
    W16 m ρ c (Proc.devRef .tc (Pipeline.arrRef spec6 w)) = (dat6 (Vin6 m ρ) c).arrAt w cfg6.N :=
  Pipeline.withArrays_arr spec6 launch6.win.arr_inj c _ _ w
abbrev Vout6 : (c : Dev nD) → (b : Ref sig .tc) → Buf (Elt F) ((c : Thread nD τ).loc b) := fun c b => W16 m ρ c b
theorem hF6 (c : Dev nD) (w : Fin cfg6.W) : (dat6 (Vin6 m ρ) c).arrAt w cfg6.N = Vout6 m ρ c (Pipeline.arrRef spec6 w) :=
  (W16_arr m ρ c w).symm
theorem hrest6 (c : Dev nD) : ∀ b, b ∉ Finset.univ.image (Pipeline.arrRef spec6) → Vout6 m ρ c b = Vin6 m ρ c b :=
  fun b hb => Pipeline.withArrays_of_ne spec6 c _ _ b fun w e => hb (Finset.mem_image.mpr ⟨w, Finset.mem_univ _, e⟩)

theorem W16_keep (c : Dev nD) (b : Ref sig .tc) (hb : b ≠ Pipeline.arrRef spec6 3) :
    W16 m ρ c (Proc.devRef .tc b) = W15 m ρ c (Proc.devRef .tc b) :=
  keep_of spec6 launch6.win.arr_inj c _ _ b fun w e => ((dat6 (Vin6 m ρ) c).arrAt_in w
    (match w, e with | ⟨0, _⟩, _ | ⟨1, _⟩, _ | ⟨2, _⟩, _ => rfl | ⟨3, _⟩, e => absurd e.symm hb) _).trans (A_eq6 (Vin6 m ρ) c w)

theorem W15_keep (c : Dev nD) (b : Ref sig .tc) (hb : b ∉ hostOps6_W) :
    W15 m ρ c (Proc.devRef .tc b) = W14 m ρ c (Proc.devRef .tc b) :=
  StableHlo.after_of_writes_sub hostOps6 _ hostOps6_writes hb

end Cert.Kernel.Hand

end
-- ==== Proof.K.Lin7.lean ====
import proofs.«405037_j79285096284452_1_alg».proof.Proof.Gen.Kernel.Launch
import proofs.«405037_j79285096284452_1_alg».proof.Proof.Gen.Kernel.Skeleton
import Idealize.ShloMosaic.Lib.Pipeline.Value
import Idealize.ShloMosaic.Lib.Tactic

noncomputable section

namespace Cert.Kernel.Hand

open Cert.Kernel.Gen Idealize.ShloMosaic TcCoe Idealize.SL.RA

variable {F : FTy → Type} [FloatOps F]
  (V : (c : Dev nD) → (b : Ref sig .tc) → Buf (Elt F) ((c : Thread nD τ).loc b)) (c : Dev nD)

def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

local notation "Sₒ" => S1280x64
local notation "eₒ" => EltTy.f32
local notation "inbₒ" => inb_S1280x64_S1280x64_0_0

variable (x0 : Vec F S1280x128 .f32) (x1 : Vec F S128x64 .f32) (x2 : Vec F S1x64 .f32)

def out7_3 : Vec F Sₒ eₒ :=
  View.canon [⟨.unit ![0, 0] _ inbₒ, k7_pay1 (View.ld x0 (.unit ![0, 0] _ inb_S1280x128_S1280x128_0_0))
    (View.ld x1 (.unit ![0, 0] _ inb_S128x64_S128x64_0_0)) (View.ld x2 (.unit ![0, 0] _ inb_S1x64_S1x64_0_0))⟩]

theorem zeroOff7 : (![0, 0] : Fin 2 → Nat) = fun _ => 0 := by decide

theorem out7_3_eq : out7_3 x0 x1 x2 = k7_pay1 x0 x1 x2 := by
  rw [out7_3, View.canon_unit_zero zeroOff7, View.ld_unit_zero zeroOff7, View.ld_unit_zero zeroOff7, View.ld_unit_zero zeroOff7]

def dat7 : Pipeline.Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (w : Fin cfg7.W) : (dat7 V c).A w = V c (Pipeline.arrRef spec7 w) := rfl

theorem after7_3 (t : Fin cfg7.N) :
    (dat7 V c).after 3 t = out7_3 (iblk7 V c 0 t) (iblk7 V c 1 t) (iblk7 V c 2 t) := by dsimp only [dat7]

theorem before7_in (t : Fin cfg7.N) : ∀ w : Fin cfg7.W, w ≠ 3 → ∀ d, (dat7 V c).before w t d = (dat7 V c).after w t
  | ⟨0, _⟩, _ | ⟨1, _⟩, _ | ⟨2, _⟩, _ => (dat7 V c).before_in_eq_fetched _ rfl (fun _ => rfl) (fun _ _ _ => rfl) (fun _ => rfl) t
  | ⟨3, _⟩, h => absurd rfl h

theorem body_obligation7 : Pipeline.BodyObligation (dat7 V c) defs₀ Variants.none () Set.univ := fun t => by
  simp (disch := decide) only [bigSep_W7, before7_in V c t]
  dsimp only [dat7, owns]
  sl_whnfR [defs₀, Defs.onTc]
  sl_unfold [cc7_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff7 inbₒ _⟩

end Cert.Kernel.Hand
-- ==== Proof.K.Seg7.lean ====
import proofs.«405037_j79285096284452_1_alg».proof.Proof.K.Seg6
import proofs.«405037_j79285096284452_1_alg».proof.Proof.K.Lin7

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ) (ρ : Dev nD → PrngReg)

abbrev W17 : Dev nD → Valuation τ sig (Elt F) := fun c => StableHlo.after hostOps7 (W16 m ρ c)
abbrev Vin7 : (c : Dev nD) → (b : Ref sig .tc) → Buf (Elt F) ((c : Thread nD τ).loc b) := fun c b => W17 m ρ c b

def W18 (c : Dev nD) : Valuation τ sig (Elt F) :=
  Pipeline.withArrays spec7 c (W17 m ρ c) fun w => (dat7 (Vin7 m ρ) c).arrAt w cfg7.N
theorem W18_arr (c : Dev nD) (w : Fin cfg7.W) :
    W18 m ρ c (Proc.devRef .tc (Pipeline.arrRef spec7 w)) = (dat7 (Vin7 m ρ) c).arrAt w cfg7.N :=
  Pipeline.withArrays_arr spec7 launch7.win.arr_inj c _ _ w
abbrev Vout7 : (c : Dev nD) → (b : Ref sig .tc) → Buf (Elt F) ((c : Thread nD τ).loc b) := fun c b => W18 m ρ c b
theorem hF7 (c : Dev nD) (w : Fin cfg7.W) : (dat7 (Vin7 m ρ) c).arrAt w cfg7.N = Vout7 m ρ c (Pipeline.arrRef spec7 w) :=
  (W18_arr m ρ c w).symm
theorem hrest7 (c : Dev nD) : ∀ b, b ∉ Finset.univ.image (Pipeline.arrRef spec7) → Vout7 m ρ c b = Vin7 m ρ c b :=
  fun b hb => Pipeline.withArrays_of_ne spec7 c _ _ b fun w e => hb (Finset.mem_image.mpr ⟨w, Finset.mem_univ _, e⟩)

theorem W18_keep (c : Dev nD) (b : Ref sig .tc) (hb : b ≠ Pipeline.arrRef spec7 3) :
    W18 m ρ c (Proc.devRef .tc b) = W17 m ρ c (Proc.devRef .tc b) :=
  keep_of spec7 launch7.win.arr_inj c _ _ b fun w e => ((dat7 (Vin7 m ρ) c).arrAt_in w
    (match w, e with | ⟨0, _⟩, _ | ⟨1, _⟩, _ | ⟨2, _⟩, _ => rfl | ⟨3, _⟩, e => absurd e.symm hb) _).trans (A_eq7 (Vin7 m ρ) c w)

theorem W17_keep (c : Dev nD) (b : Ref sig .tc) (hb : b ∉ hostOps7_W) :
    W17 m ρ c (Proc.devRef .tc b) = W16 m ρ c (Proc.devRef .tc b) :=
  StableHlo.after_of_writes_sub hostOps7 _ hostOps7_writes hb

end Cert.Kernel.Hand

end
-- ==== Proof.K.PDats.lean ====
import proofs.«405037_j79285096284452_1_alg».proof.Proof.K.Seg7
import Idealize.ShloMosaic.Lib.Pipeline.RegionsLoop

noncomputable section

namespace Cert.Kernel.Hand

open Cert.Kernel Cert.Kernel.Gen Idealize.ShloMosaic Idealize.ShloMosaic.TcCoe
open Idealize.SL Idealize.SL.RA Idealize.SL.BI Idealize.SL.BI.BIBase Idealize.SL.ProofMode
open Idealize.ShloMosaic.Pipeline (Dat)

variable {F : FTy → Type} [FloatOps F] (m : (ℓ : Loc nD τ sig) → Buf (Elt F) ℓ) (ρ : Dev nD → PrngReg)

abbrev R (c : Dev nD) : sProp (MT nD τ sig Unit (Elt F) ℕ (UR sig nD τ) ℕ) := iprop((∃ r, prngReg c r) ∗ ∃ W, owes (c : Thread nD τ) (0 : CellTallies nD τ sig Unit) W)
abbrev 𝒱₀ : Variants := Variants.none
abbrev L : GSem nD τ sig → Finset Unit := fun _ => ∅
abbrev lv : GSem nD τ sig → Unit → ℕ := fun _ _ => 0

abbrev W19 : Dev nD → Valuation τ sig (Elt F) := fun c => StableHlo.after hostOps8 (W18 m ρ c)
theorem W19_keep (c : Dev nD) (b : Ref sig .tc) (hb : b ∉ hostOps8_W) :
    W19 m ρ c (Proc.devRef .tc b) = W18 m ρ c (Proc.devRef .tc b) :=
  StableHlo.after_of_writes_sub hostOps8 _ hostOps8_writes hb
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb
theorem W2_keep (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb
theorem W3_keep (c : Dev nD) (b : Ref sig .tc) (hb : b ∉ hostOps0_2_W) :
    W3 m ρ c (Proc.devRef .tc b) = W2 m ρ c (Proc.devRef .tc b) :=
  StableHlo.after_of_writes_sub hostOps0_2 _ hostOps0_2_writes hb

theorem W19_untouched (c : Dev nD) (b : Ref sig .tc)
    (h0 : b ∉ hostOps0_W := by decide) (h0a : b ∉ hostOps0_1_W := by decide) (h0b : b ∉ hostOps0_2_W := by decide)
    (h1 : b ∉ hostOps1_W := by decide) (h2 : b ∉ hostOps2_W := by decide) (h3 : b ∉ hostOps3_W := by decide)
    (h4 : b ∉ hostOps4_W := by decide) (h5 : b ∉ hostOps5_W := by decide) (h6 : b ∉ hostOps6_W := by decide)
    (h7 : b ∉ hostOps7_W := by decide) (h8 : b ∉ hostOps8_W := by decide)
    (r0 : b ≠ Pipeline.arrRef spec0 3 := by decide) (r1 : b ≠ Pipeline.arrRef spec1 3 := by decide)
    (r2 : b ≠ Pipeline.arrRef spec2 3 := by decide) (r3 : b ≠ Pipeline.arrRef spec3 3 := by decide)
    (r4 : b ≠ Pipeline.arrRef spec4 3 := by decide) (r5 : b ≠ Pipeline.arrRef spec5 3 := by decide)
    (r6 : b ≠ Pipeline.arrRef spec6 3 := by decide) (r7 : b ≠ Pipeline.arrRef spec7 3 := by decide) :
    W19 m ρ c (Proc.devRef .tc b) = m ((c : Thread nD τ).loc b) := by
  rw [W19_keep m ρ c b h8, W18_keep m ρ c b r7, W17_keep m ρ c b h7, W16_keep m ρ c b r6, W15_keep m ρ c b h6,
    W14_keep m ρ c b r5, W13_keep m ρ c b h5, W12_keep m ρ c b r4, W11_keep m ρ c b h4, W10_keep m ρ c b r3,
    W9_keep m ρ c b h3, W8_keep m ρ c b r2, W7_keep m ρ c b h2, W6_keep m ρ c b r1, W5_keep m ρ c b h1,
    W4_keep m ρ c b r0, W3_keep m ρ c b h0b, W2_keep m ρ c b h0a, W1_keep m ρ c b h0]

def pdats : (p : Fin 8) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
  | ⟨7, _⟩ => fun c => dat7 (Vin7 m ρ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def regionOf {p : Fin 8} (kit : Pipeline.LaunchFacts (nD := nD) (τ := τ) cfgs p) (Win Wout : Dev nD → Valuation τ sig (Elt F))
    (hbody : ∀ c, Pipeline.BodyObligationLoose (pdats m ρ p c) defs₀ 𝒱₀ () Set.univ)
    (howed : ∀ c t, (pdats m ρ p c).owed t = 0) (hrec : ∀ c x, x ∈ (pdats m ρ p c).recorded 0)
    (hshare : ∀ c w, (pdats m ρ p c).share w = fullShare)
    (hA : ∀ c w, (pdats m ρ p c).A w = Win c (Pipeline.arrRef (cfgs p).spec w))
    (hF : ∀ c w, (pdats m ρ p c).arrAt w (cfgs p).N = Wout c (Pipeline.arrRef (cfgs p).spec w))
    (hrest : ∀ c (b : Ref sig .tc), b ∉ Finset.univ.image (Pipeline.arrRef (cfgs p).spec) → Wout c b = Win c b)
    (hfst : ∀ c, iprop((∃ r, prngReg c r) ∗ Pipeline.scopedRest (cfgs p).spec c) ⊢ (pdats m ρ p c).Φ 0)
    (hlst : ∀ c, (pdats m ρ p c).Φ (Fin.last (cfgs p).N) ⊢ iprop((∃ r, prngReg c r) ∗ Pipeline.scopedRest (cfgs p).spec c)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (cfgs p).spec c fun b => Win c b
  hentry c := by
    have hsplit := Pipeline.arrays_of_unscopedBufs (pcfgs (F := F)) adm (pdats m ρ) kit.win kit.arr_whole c (hshare c) (fun b => Win c b) (hA c)
    rw [Pipeline.unscopedBufs_held] at hsplit
    unfold Pipeline.Dat.owesAt Pipeline.owesWithin
    rw [Pipeline.ownSems0_none, howed c 0]
    iintro ⟨⟨Hub, Hp, %W, HO⟩, -, -⟩
    icases hsplit $$ Hub with ⟨Ha, Hrest⟩
    imodintro
    iframe Ha Hp Hrest
    isplitr; · unfold Pipeline.prefHeld; rw [show (Finset.univ : Finset (Fin 0)) = ∅ from rfl, BI.bigSep_empty]; iempintro
    iexists W; iframe HO; ipureintro; exact fun x _ => Or.inl (hrec c x)
  hin c := by iintro ⟨HX, -, HR⟩; iapply hfst c; iframe
  hout c := by rw [Pipeline.ownSems0_none]; iintro H; icases hlst c $$ H with ⟨HX, HR⟩; iframe; iempintro
  hexit c := by
    have hjoin := Pipeline.unscopedBufs_of_arrays (pcfgs (F := F)) adm
      kit.win kit.arr_whole c (pdats m ρ) (hshare c) (fun b => Win c b) (fun b => Wout c b) ((pdats m ρ p c).arrAt · (cfgs p).N) (hF c) (hrest c)
    rw [Pipeline.unscopedBufs_held] at hjoin
    unfold Pipeline.Dat.owesAt Pipeline.owesWithin
    rw [howed c _]
    iintro ⟨Ha, ⟨%W, -, HO⟩, HY, Hrest⟩
    imodintro
    isplitl [Ha Hrest]
    · iapply hjoin; iframe
    isplitl [HY]; · iexact HY
    iexists W; iexact HO

end Cert.Kernel.Hand

end
-- ==== Proof.K.Reg0.lean ====
import proofs.«405037_j79285096284452_1_alg».proof.Proof.K.PDats

noncomputable section

namespace Cert.Kernel.Hand

open Cert.Kernel Cert.Kernel.Gen Idealize.ShloMosaic Idealize.SL.BI

variable {F : FTy → Type} [FloatOps F] (m : (ℓ : Loc nD τ sig) → Buf (Elt F) ℓ) (ρ : Dev nD → PrngReg)

def reg0 : Pipeline.RegionSeg (pcfgs (F := F)) adm (pdats m ρ) () defs₀ 𝒱₀ L lv 0 :=
  regionOf m ρ launch0 (W3 m ρ) (W4 m ρ) (fun c => (body_obligation0 (Vin0 m ρ) c).loose) (fun _ _ => rfl) (fun _ _ => trivial)
    (fun c => (pdats m ρ 0 c).share_full fun _ => rfl) (fun _ _ => rfl) (hF0 m ρ) (hrest0 m ρ) (fun _ => sep_comm) fun _ => sep_comm

end Cert.Kernel.Hand

end
-- ==== Proof.K.Reg1.lean ====
import proofs.«405037_j79285096284452_1_alg».proof.Proof.K.PDats

noncomputable section

namespace Cert.Kernel.Hand

open Cert.Kernel Cert.Kernel.Gen Idealize.ShloMosaic Idealize.SL.BI

variable {F : FTy → Type} [FloatOps F] (m : (ℓ : Loc nD τ sig) → Buf (Elt F) ℓ) (ρ : Dev nD → PrngReg)

def reg1 : Pipeline.RegionSeg (pcfgs (F := F)) adm (pdats m ρ) () defs₀ 𝒱₀ L lv 1 :=
  regionOf m ρ launch1 (W5 m ρ) (W6 m ρ) (fun c => (body_obligation1 (Vin1 m ρ) c).loose) (fun _ _ => rfl) (fun _ _ => trivial)
    (fun c => (pdats m ρ 1 c).share_full fun _ => rfl) (fun _ _ => rfl) (hF1 m ρ) (hrest1 m ρ) (fun _ => sep_comm) fun _ => sep_comm

end Cert.Kernel.Hand

end
-- ==== Proof.K.Reg2.lean ====
import proofs.«405037_j79285096284452_1_alg».proof.Proof.K.PDats

noncomputable section

namespace Cert.Kernel.Hand

open Cert.Kernel Cert.Kernel.Gen Idealize.ShloMosaic Idealize.SL.BI

variable {F : FTy → Type} [FloatOps F] (m : (ℓ : Loc nD τ sig) → Buf (Elt F) ℓ) (ρ : Dev nD → PrngReg)

def reg2 : Pipeline.RegionSeg (pcfgs (F := F)) adm (pdats m ρ) () defs₀ 𝒱₀ L lv 2 :=
  regionOf m ρ launch2 (W7 m ρ) (W8 m ρ) (fun c => (body_obligation2 (Vin2 m ρ) c).loose) (fun _ _ => rfl) (fun _ _ => trivial)
    (fun c => (pdats m ρ 2 c).share_full fun _ => rfl) (fun _ _ => rfl) (hF2 m ρ) (hrest2 m ρ) (hin2 (Vin2 m ρ)) (hout2 (Vin2 m ρ))

end Cert.Kernel.Hand

end
-- ==== Proof.K.Reg3.lean ====
import proofs.«405037_j79285096284452_1_alg».proof.Proof.K.PDats

noncomputable section

namespace Cert.Kernel.Hand

open Cert.Kernel Cert.Kernel.Gen Idealize.ShloMosaic Idealize.SL.BI

variable {F : FTy → Type} [FloatOps F] (m : (ℓ : Loc nD τ sig) → Buf (Elt F) ℓ) (ρ : Dev nD → PrngReg)

def reg3 : Pipeline.RegionSeg (pcfgs (F := F)) adm (pdats m ρ) () defs₀ 𝒱₀ L lv 3 :=
  regionOf m ρ launch3 (W9 m ρ) (W10 m ρ) (fun c => (body_obligation3 (Vin3 m ρ) c).loose) (fun _ _ => rfl) (fun _ _ => trivial)
    (fun c => (pdats m ρ 3 c).share_full fun _ => rfl) (fun _ _ => rfl) (hF3 m ρ) (hrest3 m ρ) (fun _ => sep_comm) fun _ => sep_comm

end Cert.Kernel.Hand

end
-- ==== Proof.K.Reg4.lean ====
import proofs.«405037_j79285096284452_1_alg».proof.Proof.K.PDats

noncomputable section

namespace Cert.Kernel.Hand

open Cert.Kernel Cert.Kernel.Gen Idealize.ShloMosaic Idealize.SL.BI

variable {F : FTy → Type} [FloatOps F] (m : (ℓ : Loc nD τ sig) → Buf (Elt F) ℓ) (ρ : Dev nD → PrngReg)

def reg4 : Pipeline.RegionSeg (pcfgs (F := F)) adm (pdats m ρ) () defs₀ 𝒱₀ L lv 4 :=
  regionOf m ρ launch4 (W11 m ρ) (W12 m ρ) (fun c => (body_obligation4 (Vin4 m ρ) c).loose) (fun _ _ => rfl) (fun _ _ => trivial)
    (fun c => (pdats m ρ 4 c).share_full fun _ => rfl) (fun _ _ => rfl) (hF4 m ρ) (hrest4 m ρ) (hin4 (Vin4 m ρ)) (hout4 (Vin4 m ρ))

end Cert.Kernel.Hand

end
-- ==== Proof.K.Reg5.lean ====
import proofs.«405037_j79285096284452_1_alg».proof.Proof.K.PDats

noncomputable section

namespace Cert.Kernel.Hand

open Cert.Kernel Cert.Kernel.Gen Idealize.ShloMosaic Idealize.SL.BI

variable {F : FTy → Type} [FloatOps F] (m : (ℓ : Loc nD τ sig) → Buf (Elt F) ℓ) (ρ : Dev nD → PrngReg)

def reg5 : Pipeline.RegionSeg (pcfgs (F := F)) adm (pdats m ρ) () defs₀ 𝒱₀ L lv 5 :=
  regionOf m ρ launch5 (W13 m ρ) (W14 m ρ) (fun c => (body_obligation5 (Vin5 m ρ) c).loose) (fun _ _ => rfl) (fun _ _ => trivial)
    (fun c => (pdats m ρ 5 c).share_full fun _ => rfl) (fun _ _ => rfl) (hF5 m ρ) (hrest5 m ρ) (fun _ => sep_comm) fun _ => sep_comm

end Cert.Kernel.Hand

end
-- ==== Proof.K.Reg6.lean ====
import proofs.«405037_j79285096284452_1_alg».proof.Proof.K.PDats

noncomputable section

namespace Cert.Kernel.Hand

open Cert.Kernel Cert.Kernel.Gen Idealize.ShloMosaic Idealize.SL.BI

variable {F : FTy → Type} [FloatOps F] (m : (ℓ : Loc nD τ sig) → Buf (Elt F) ℓ) (ρ : Dev nD → PrngReg)

def reg6 : Pipeline.RegionSeg (pcfgs (F := F)) adm (pdats m ρ) () defs₀ 𝒱₀ L lv 6 :=
  regionOf m ρ launch6 (W15 m ρ) (W16 m ρ) (fun c => (body_obligation6 (Vin6 m ρ) c).loose) (fun _ _ => rfl) (fun _ _ => trivial)
    (fun c => (pdats m ρ 6 c).share_full fun _ => rfl) (fun _ _ => rfl) (hF6 m ρ) (hrest6 m ρ) (hin6 (Vin6 m ρ)) (hout6 (Vin6 m ρ))

end Cert.Kernel.Hand

end
-- ==== Proof.K.Reg7.lean ====
import proofs.«405037_j79285096284452_1_alg».proof.Proof.K.PDats

noncomputable section

namespace Cert.Kernel.Hand

open Cert.Kernel Cert.Kernel.Gen Idealize.ShloMosaic Idealize.SL.BI

variable {F : FTy → Type} [FloatOps F] (m : (ℓ : Loc nD τ sig) → Buf (Elt F) ℓ) (ρ : Dev nD → PrngReg)

def reg7 : Pipeline.RegionSeg (pcfgs (F := F)) adm (pdats m ρ) () defs₀ 𝒱₀ L lv 7 :=
  regionOf m ρ launch7 (W17 m ρ) (W18 m ρ) (fun c => (body_obligation7 (Vin7 m ρ) c).loose) (fun _ _ => rfl) (fun _ _ => trivial)
    (fun c => (pdats m ρ 7 c).share_full fun _ => rfl) (fun _ _ => rfl) (hF7 m ρ) (hrest7 m ρ) (fun _ => sep_comm) fun _ => sep_comm

end Cert.Kernel.Hand

end
-- ==== Proof.K.Run.lean ====
import proofs.«405037_j79285096284452_1_alg».proof.Proof.K.Reg0
import proofs.«405037_j79285096284452_1_alg».proof.Proof.K.Reg1
import proofs.«405037_j79285096284452_1_alg».proof.Proof.K.Reg2
import proofs.«405037_j79285096284452_1_alg».proof.Proof.K.Reg3
import proofs.«405037_j79285096284452_1_alg».proof.Proof.K.Reg4
import proofs.«405037_j79285096284452_1_alg».proof.Proof.K.Reg5
import proofs.«405037_j79285096284452_1_alg».proof.Proof.K.Reg6
import proofs.«405037_j79285096284452_1_alg».proof.Proof.K.Reg7

noncomputable section

namespace Cert.Kernel.Hand

open Cert.Kernel Cert.Kernel.Gen Idealize.ShloMosaic Idealize.ShloMosaic.TcCoe Idealize.ShloMosaic.Tactic Idealize.ShloMosaic.Rounds
open Idealize.SL Idealize.SL.BI Idealize.SL.BI.BIBase Idealize.SL.ProofMode Idealize.SL.Sem

variable {F : FTy → Type} [FloatOps F] (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)) ]

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [show main (F := F) c = Pipeline.Seg.run (segs m ρ) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; iintro Hu; imodintro
      isplitl [Hu]; · iapply (show ownU _ ⊢ BI.own (emb₁ _) from .rfl); iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W19 m ρ c) ∗ ∃ r, prngReg c r))
    (hch := by
      repeat refine ⟨fun _ => .rfl, ?_⟩
      exact fun c => sep_assoc')
    (hinit := by
      refine Pipeline.initEach L lv fun c => ?_
      rw [show unscopedBufs c (fun b => m ((c : Thread nD τ).loc b)) = _ from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v50) = W19 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have k (b : Ref sig .tc) (hb : ¬ (Proc.devRef .tc b : DevRef τ sig).isScoped) (e : W19 m ρ c (Proc.devRef .tc b) = m ((c.tc : Thread nD τ).loc b)) :
        r.2.mem ((c.tc : Thread nD τ).loc b) = m ((c.tc : Thread nD τ).loc b) :=
      (h c _ (mem_uc b hb)).trans e
    ⟨h c _ (mem_uc main_v50 (by decide)), k main_arg0 (by decide) (W19_untouched m ρ c _), k main_arg1 (by decide) (W19_untouched m ρ c _),
      k main_arg2 (by decide) (W19_untouched m ρ c _), k main_arg3 (by decide) (W19_untouched m ρ c _),
      k main_arg4 (by decide) (W19_untouched m ρ c _), k main_arg5 (by decide) (W19_untouched m ρ c _),
      k main_arg6 (by decide) (W19_untouched m ρ c _), k main_arg7 (by decide) (W19_untouched m ρ c _),
      k main_arg8 (by decide) (W19_untouched m ρ c _)⟩) (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Hand

end
-- ==== Proof.KI.Lin0.lean ====
import proofs.«405037_j79285096284452_1_alg».proof.Proof.Gen.KernelIdeal.Launch
import proofs.«405037_j79285096284452_1_alg».proof.Proof.Gen.KernelIdeal.Skeleton
import Idealize.ShloMosaic.Lib.Pipeline.Value
import Idealize.ShloMosaic.Lib.Tactic

noncomputable section

namespace Cert.KernelIdeal.Hand

open Cert.KernelIdeal.Gen Idealize.ShloMosaic TcCoe Idealize.SL.RA

variable {F : FTy → Type} [FloatOps F]
  (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

local notation "Sₒ" => S1280x128
local notation "eₒ" => EltTy.f32
local notation "inbₒ" => inb_S1280x128_S1280x128_0_0

variable (x0 : Vec F S1280x128 .f32) (x1 : Vec F S128x128 .f32) (x2 : Vec F S1x128 .f32)

def out0_3 : Vec F Sₒ eₒ :=
  View.canon [⟨.unit ![0, 0] _ inbₒ, k0_pay1 (View.ld x0 (.unit ![0, 0] _ inb_S1280x128_S1280x128_0_0))
    (View.ld x1 (.unit ![0, 0] _ inb_S128x128_S128x128_0_0)) (View.ld x2 (.unit ![0, 0] _ inb_S1x128_S1x128_0_0))⟩]

theorem zeroOff0 : (![0, 0] : Fin 2 → Nat) = fun _ => 0 := by decide

theorem out0_3_eq : out0_3 x0 x1 x2 = k0_pay1 x0 x1 x2 := by
  rw [out0_3, View.canon_unit_zero zeroOff0, View.ld_unit_zero zeroOff0, View.ld_unit_zero zeroOff0, View.ld_unit_zero zeroOff0]

def dat0 : Pipeline.Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) :
    (dat0 V c).after 3 t = out0_3 (iblk0 V c 0 t) (iblk0 V c 1 t) (iblk0 V c 2 t) := by dsimp only [dat0]

theorem before0_in (t : Fin cfg0.N) : ∀ w : Fin cfg0.W, w ≠ 3 → ∀ d, (dat0 V c).before w t d = (dat0 V c).after w t
  | ⟨0, _⟩, _ | ⟨1, _⟩, _ | ⟨2, _⟩, _ => (dat0 V c).before_in_eq_fetched _ rfl (fun _ => rfl) (fun _ _ _ => rfl) (fun _ => rfl) t
  | ⟨3, _⟩, h => absurd rfl h

theorem body_obligation0 : Pipeline.BodyObligation (dat0 V c) defs₀ Variants.none () Set.univ := fun t => by
  simp (disch := decide) only [bigSep_W0, before0_in V c t]
  dsimp only [dat0, owns]
  sl_whnfR [defs₀, Defs.onTc]
  sl_unfold [cc0_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff0 inbₒ _⟩

end Cert.KernelIdeal.Hand
-- ==== Proof.KI.Seg0.lean ====
import proofs.«405037_j79285096284452_1_alg».proof.Proof.Gen.KernelIdeal.Regions
import proofs.«405037_j79285096284452_1_alg».proof.Proof.KI.Lin0
import Idealize.ShloMosaic.Lib.Pipeline.FrameSuffix

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

theorem keep_of {gr W : Nat} (win : Fin W → Pipeline.WinSpec sig gr) (hinj : Function.Injective (Pipeline.arrRef win)) (c : Dev nD)
    (V : Valuation τ sig (Elt F)) (A : (w : Fin W) → Buf (Elt F) ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb; exact (Pipeline.withArrays_arr win hinj c V A w).trans (h w rfl)
  · exact Pipeline.withArrays_of_ne win c V A b fun w e => hb ⟨w, e⟩

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev Vin0 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N :=
  Pipeline.withArrays_arr spec0 launch0.win.arr_inj c _ _ w
abbrev Vout0 : (c : Dev nD) → (b : Ref sig .tc) → Buf (Elt F) ((c : Thread nD τ).loc b) := fun c b => W4 m ρ c b
theorem hF0 (c : Dev nD) (w : Fin cfg0.W) : (dat0 (Vin0 m ρ) c).arrAt w cfg0.N = Vout0 m ρ c (Pipeline.arrRef spec0 w) :=
  (W4_arr m ρ c w).symm
theorem hrest0 (c : Dev nD) : ∀ b, b ∉ Finset.univ.image (Pipeline.arrRef spec0) → Vout0 m ρ c b = Vin0 m ρ c b :=
  fun b hb => Pipeline.withArrays_of_ne spec0 c _ _ b fun w e => hb (Finset.mem_image.mpr ⟨w, Finset.mem_univ _, e⟩)

theorem W4_keep (c : Dev nD) (b : Ref sig .tc) (hb : b ≠ Pipeline.arrRef spec0 3) :
    W4 m ρ c (Proc.devRef .tc b) = W3 m ρ c (Proc.devRef .tc b) :=
  keep_of spec0 launch0.win.arr_inj c _ _ b fun w e => ((dat0 (Vin0 m ρ) c).arrAt_in w
    (match w, e with | ⟨0, _⟩, _ | ⟨1, _⟩, _ | ⟨2, _⟩, _ => rfl | ⟨3, _⟩, e => absurd e.symm hb) _).trans (A_eq0 (Vin0 m ρ) c w)

end Cert.KernelIdeal.Hand

end
-- ==== Proof.KI.Lin1.lean ====
import proofs.«405037_j79285096284452_1_alg».proof.Proof.Gen.KernelIdeal.Launch
import proofs.«405037_j79285096284452_1_alg».proof.Proof.Gen.KernelIdeal.Skeleton
import Idealize.ShloMosaic.Lib.Pipeline.Value
import Idealize.ShloMosaic.Lib.Tactic

noncomputable section

namespace Cert.KernelIdeal.Hand

open Cert.KernelIdeal.Gen Idealize.ShloMosaic TcCoe Idealize.SL.RA

variable {F : FTy → Type} [FloatOps F]
  (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

local notation "Sₒ" => S1280x128
local notation "eₒ" => EltTy.bf16
local notation "inbₒ" => inb_S1280x128_S1280x128_0_0

variable (x0 : Vec F S1280x128 .f32) (x1 : Vec F S128x128 .f32) (x2 : Vec F S1x128 .f32)

def out1_3 : Vec F Sₒ eₒ :=
  View.canon [⟨.unit ![0, 0] _ inbₒ, k1_pay1 (View.ld x0 (.unit ![0, 0] _ inb_S1280x128_S1280x128_0_0))
    (View.ld x1 (.unit ![0, 0] _ inb_S128x128_S128x128_0_0)) (View.ld x2 (.unit ![0, 0] _ inb_S1x128_S1x128_0_0))⟩]

theorem zeroOff1 : (![0, 0] : Fin 2 → Nat) = fun _ => 0 := by decide

theorem out1_3_eq : out1_3 x0 x1 x2 = k1_pay1 x0 x1 x2 := by
  rw [out1_3, View.canon_unit_zero zeroOff1, View.ld_unit_zero zeroOff1, View.ld_unit_zero zeroOff1, View.ld_unit_zero zeroOff1]

def dat1 : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_3 (t : Fin cfg1.N) :
    (dat1 V c).after 3 t = out1_3 (iblk1 V c 0 t) (iblk1 V c 1 t) (iblk1 V c 2 t) := by dsimp only [dat1]

theorem before1_in (t : Fin cfg1.N) : ∀ w : Fin cfg1.W, w ≠ 3 → ∀ d, (dat1 V c).before w t d = (dat1 V c).after w t
  | ⟨0, _⟩, _ | ⟨1, _⟩, _ | ⟨2, _⟩, _ => (dat1 V c).before_in_eq_fetched _ rfl (fun _ => rfl) (fun _ _ _ => rfl) (fun _ => rfl) t
  | ⟨3, _⟩, h => absurd rfl h

theorem body_obligation1 : Pipeline.BodyObligation (dat1 V c) defs₀ Variants.none () Set.univ := fun t => by
  simp (disch := decide) only [bigSep_W1, before1_in V c t]
  dsimp only [dat1, owns]
  sl_whnfR [defs₀, Defs.onTc]
  sl_unfold [cc1_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff1 inbₒ _⟩

end Cert.KernelIdeal.Hand
-- ==== Proof.KI.Seg1.lean ====
import proofs.«405037_j79285096284452_1_alg».proof.Proof.KI.Seg0
import proofs.«405037_j79285096284452_1_alg».proof.Proof.KI.Lin1

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

abbrev W5 : Dev nD → Valuation τ sig (Elt F) := fun c => StableHlo.after hostOps1 (W4 m ρ c)
abbrev Vin1 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N :=
  Pipeline.withArrays_arr spec1 launch1.win.arr_inj c _ _ w
abbrev Vout1 : (c : Dev nD) → (b : Ref sig .tc) → Buf (Elt F) ((c : Thread nD τ).loc b) := fun c b => W6 m ρ c b
theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => Pipeline.withArrays_of_ne spec1 c _ _ b fun w e => hb (Finset.mem_image.mpr ⟨w, Finset.mem_univ _, e⟩)

theorem W6_keep (c : Dev nD) (b : Ref sig .tc) (hb : b ≠ Pipeline.arrRef spec1 3) :
    W6 m ρ c (Proc.devRef .tc b) = W5 m ρ c (Proc.devRef .tc b) :=
  keep_of spec1 launch1.win.arr_inj c _ _ b fun w e => ((dat1 (Vin1 m ρ) c).arrAt_in w
    (match w, e with | ⟨0, _⟩, _ | ⟨1, _⟩, _ | ⟨2, _⟩, _ => rfl | ⟨3, _⟩, e => absurd e.symm hb) _).trans (A_eq1 (Vin1 m ρ) c w)

theorem W5_keep (c : Dev nD) (b : Ref sig .tc) (hb : b ∉ hostOps1_W) :
    W5 m ρ c (Proc.devRef .tc b) = W4 m ρ c (Proc.devRef .tc b) :=
  StableHlo.after_of_writes_sub hostOps1 _ hostOps1_writes hb

end Cert.KernelIdeal.Hand

end
-- ==== Proof.KI.Agg2.lean ====
import proofs.«405037_j79285096284452_1_alg».proof.Proof.LibWhole
import proofs.«405037_j79285096284452_1_alg».proof.Proof.Gen.KernelIdeal.Launch
import proofs.«405037_j79285096284452_1_alg».proof.Proof.Gen.KernelIdeal.Skeleton
import proofs.«405037_j79285096284452_1_alg».proof.Proof.Gen.KernelIdeal.Points
import Idealize.ShloMosaic.Lib.Pipeline.TableIdle

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev c2_0 (i : grid2.Coords) : Prop := (Scalar.cmpi .ne (Scalar.extui (Scalar.cmpi .eq (BitVec.ofNat 32 (i 1).val) 0#32)) 0#32) = 1#1

theorem hc2_0 : ∀ t : Fin grid2.N, c2_0 (grid2.coords t) ↔ t.val % 4 = 0 := by decide +kernel

theorem hc2_1 : ∀ t : Fin grid2.N, k2_cond2 (grid2.coords t) = 1#1 ↔ t.val % 4 = 3 := by decide +kernel

theorem idle2_3 : ∀ t : Fin grid2.N, t.val % 4 ≠ 3 → idle2 3 (grid2.coords t) = true := by decide +kernel

theorem live2_3 : ∀ t : Fin cfg2.N, t.val % 4 = 3 → cfg2.idle 3 (grid2.coords t) = false :=
  (by decide +kernel : ∀ t : Fin grid2.N, t.val % 4 = 3 → idle2 3 (grid2.coords t) = false)

theorem noflush2_3 (t : Fin cfg2.N) (h : t.val % 4 ≠ 3) : (cfg2.win 3).flush t = false :=
  Bool.eq_false_iff.mpr (mt (flush2_3 t).mp h)

section
variable (c : Dev nD) (E : Set ℕ) (i : grid2.Coords)
  (arg2 : Memref sig .tc .vmem S1280x2560 .bf16) (harg2 : arg2.IsWhole) (arg3 : Memref sig .tc .vmem S2560x128 .bf16) (harg3 : arg3.IsWhole)
  (arg4 : Memref sig .tc .vmem S1x128 .f32) (harg4 : arg4.IsWhole) (arg5 : Memref sig .tc .vmem S1280x128 .f32) (harg5 : arg5.IsWhole)
  (arg6 : Memref sig .tc .vmem S1280x128 .f32) (harg6 : arg6.IsWhole)
  (x0 : Vec F S1280x2560 .bf16) (x1 : Vec F S2560x128 .bf16) (x2 : Vec F S1x128 .f32) (d s : Vec F S1280x128 .f32)

private abbrev Tri (K : PUnit → sProp 𝕄) (acc out : Vec F S1280x128 .f32) : Prop :=
  iprop(owns c.tc arg2 fullShare x0 ∗ owns c.tc arg3 fullShare x1 ∗ owns c.tc arg4 fullShare x2 ∗ owns c.tc arg5 fullShare d
      ∗ owns c.tc arg6 fullShare s
      ∗ (iprop(owns c.tc arg2 fullShare x0 ∗ owns c.tc arg3 fullShare x1 ∗ owns c.tc arg4 fullShare x2 ∗ owns c.tc arg5 fullShare out
          ∗ owns c.tc arg6 fullShare acc) -∗ K ⟨⟩))
    ⊢ wp frame (wpE (defs₀ (F := F)) Variants.none c none) E (cc2_kernel i arg2 harg2 arg3 harg3 arg4 harg4 arg5 harg5 arg6 harg6) K

theorem sound_kernel2_A (K : PUnit → sProp 𝕄) (hc0 : c2_0 i) (hc1 : ¬k2_cond2 i = 1#1) :
    Tri c E i arg2 harg2 arg3 harg3 arg4 harg4 arg5 harg5 arg6 harg6 x0 x1 x2 d s K (k2_pay2 k2_pay1 x0 x1) d := by
  unfold Tri; simp only [cc2_kernel_eq_skeleton]; unfold cc2_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, View.readCov_cons_toLoadRect, readAt_all2, readAt_all2]

theorem sound_kernel2_B (K : PUnit → sProp 𝕄) (hc0 : ¬c2_0 i) (hc1 : ¬k2_cond2 i = 1#1) :
    Tri c E i arg2 harg2 arg3 harg3 arg4 harg4 arg5 harg5 arg6 harg6 x0 x1 x2 d s K (k2_pay2 s x0 x1) d := by
  unfold Tri; simp only [cc2_kernel_eq_skeleton]; unfold cc2_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, readAt_all2, readAt_all2, readAt_all2]

theorem sound_kernel2_C (K : PUnit → sProp 𝕄) (hc0 : ¬c2_0 i) (hc1 : k2_cond2 i = 1#1) :
    Tri c E i arg2 harg2 arg3 harg3 arg4 harg4 arg5 harg5 arg6 harg6 x0 x1 x2 d s K (k2_pay2 s x0 x1) (k2_pay3 (k2_pay2 s x0 x1) x2) := by
  unfold Tri; simp only [cc2_kernel_eq_skeleton]; unfold cc2_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]
  · iexists _; iframe; ipureintro
    sl_unfold_run_names
    rw [read_writes_all2, View.readCov_cons_toLoadRect, readAt_all2, readAt_all2, readAt_all2, readAt_all2]
  iexists _; iframe; ipureintro
  sl_unfold_run_names
  rw [read_writes_all2, readAt_all2, readAt_all2, readAt_all2]

end

def accStep2 (c : Dev nD) (n : ℕ) (prev : Vec F S1280x128 .f32) : Vec F S1280x128 .f32 :=
  if h : n < cfg2.N then k2_pay2 (if n % 4 = 0 then k2_pay1 else prev) (iblk2 V c 0 ⟨n, h⟩) (iblk2 V c 1 ⟨n, h⟩) else prev
def acc2 (c : Dev nD) : ℕ → Vec F S1280x128 .f32
  | 0 => accStep2 V c 0 k2_pay1
  | n + 1 => accStep2 V c (n + 1) (acc2 c n)
theorem acc2_reset (c : Dev nD) (n : ℕ) (hn : n < cfg2.N) (h0 : n % 4 = 0) :
    acc2 V c n = k2_pay2 k2_pay1 (iblk2 V c 0 ⟨n, hn⟩) (iblk2 V c 1 ⟨n, hn⟩) := by
  cases n <;> (unfold acc2 accStep2; rw [dif_pos hn, if_pos h0])
theorem acc2_step (c : Dev nD) (n : ℕ) (hn : n < cfg2.N) (h0 : n % 4 ≠ 0) :
    acc2 V c n = k2_pay2 (acc2 V c (n - 1)) (iblk2 V c 0 ⟨n, hn⟩) (iblk2 V c 1 ⟨n, hn⟩) := by
  cases n with
  | zero => exact absurd rfl h0
  | succ n => rw [Nat.add_sub_cancel, acc2, accStep2, dif_pos hn, if_neg h0]

def Phi2 (c : Dev nD) (n : ℕ) : sProp 𝕄 :=
  iprop(∃ f : Buf (Elt F) ((c : Thread nD τ).loc cc2_scratch0), ⌜n % 4 ≠ 0 → f = acc2 V c (n - 1)⌝
    ∗ (((c : Thread nD τ).loc cc2_scratch0) ↦{fullShare} f)
    ∗ Pipeline.scopedRestBut (Ix := Unit) (Name := ℕ) (U := UR sig nD τ) (Lvl := ℕ) (Val := Elt F) spec2 c [cc2_scratch0]
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val) (iblk2 V c 2 t)
  Φ t := Phi2 V c t.val
  q _ := fullShare
  owed _ := 0

theorem A_eq2 (c : Dev nD) (w : Fin cfg2.W) : (dat2 V c).A w = V c (Pipeline.arrRef spec2 w) :=
  rfl

theorem after2_3 (c : Dev nD) (t : Fin cfg2.N) : (dat2 V c).after 3 t = k2_pay3 (acc2 V c t.val) (iblk2 V c 2 t) := rfl

theorem before2_in (c : Dev nD) (t : Fin cfg2.N) :
    (∀ d, (dat2 V c).before 0 t d = iblk2 V c 0 t) ∧ (∀ d, (dat2 V c).before 1 t d = iblk2 V c 1 t)
      ∧ ∀ d, (dat2 V c).before 2 t d = iblk2 V c 2 t := by
  refine ⟨?_, ?_, ?_⟩ <;>
    exact fun d => (dat2 V c).before_in_eq_fetched _ rfl (fun _ => rfl) (fun _ _ _ => rfl) (fun _ => rfl) t d

theorem leaves2_3_live (c : Dev nD) (t : Fin cfg2.N) (h : t.val % 4 = 3) :
    (dat2 V c).leavesExact 3 t = owns c.tc (st2_3 t) fullShare (k2_pay3 (acc2 V c t.val) (iblk2 V c 2 t)) := by
  rw [← after2_3]; unfold Dat.leavesExact; rw [live2_3 t h]

theorem sound_body2 (c : Dev nD) (t : Fin cfg2.N) :
    iprop((dat2 V c).Φ t.castSucc ∗ (dat2 V c).owesAt () t.castSucc
      ∗ (∃ d, owns c.tc (st2_0 t) fullShare ((dat2 V c).before 0 t d))
      ∗ (∃ d, owns c.tc (st2_1 t) fullShare ((dat2 V c).before 1 t d))
      ∗ (∃ d, owns c.tc (st2_2 t) fullShare ((dat2 V c).before 2 t d))
      ∗ (∃ d, owns c.tc (st2_3 t) fullShare ((dat2 V c).before 3 t d)))
    ⊢ wp frame (wpE (defs₀ (F := F)) Variants.none c none) Set.univ (bodyAt2 t) fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t) := by
  unfold bodyAt2
  simp only [before2_in V c]
  rw [show (dat2 V c).owesAt () t.succ = (dat2 V c).owesAt () t.castSucc from rfl,
    show (dat2 V c).Φ t.succ = Phi2 V c (t.val + 1) from rfl,
    show (dat2 V c).Φ t.castSucc = Phi2 V c t.val from rfl,
    show (dat2 V c).leavesExact 0 t = owns c.tc (st2_0 t) fullShare (iblk2 V c 0 t) from rfl,
    show (dat2 V c).leavesExact 1 t = owns c.tc (st2_1 t) fullShare (iblk2 V c 1 t) from rfl,
    show (dat2 V c).leavesExact 2 t = owns c.tc (st2_2 t) fullShare (iblk2 V c 2 t) from rfl]
  unfold Phi2
  simp only [← owns_whole]
  by_cases h0 : t.val % 4 = 0
  · have h3 : t.val % 4 ≠ 3 := by omega
    rw [Dat.leavesExact_idle (dat2 V c) 3 t (idle2_3 t h3) (noflush2_3 t h3)]
    iintro ⟨⟨%f, -, HS, HR, Hg⟩, Ho, ⟨%d0, H0⟩, ⟨%d1, H1⟩, ⟨%d2, H2⟩, ⟨%d3, H3⟩⟩
    iapply (sound_kernel2_A c _ _ _ _ _ _ _ _ _ _ _ _ (iblk2 V c 0 t) (iblk2 V c 1 t) (iblk2 V c 2 t) _ f _ ((hc2_0 t).mpr h0) (mt (hc2_1 t).mp h3))
    iframe H0 H1 H2 H3 HS
    iintro ⟨H0, H1, H2, H3, HS⟩
    isplitl [HS HR Hg]; · iexists _; iframe; ipureintro; exact fun _ => (acc2_reset V c t.val t.isLt h0).symm
    iframe; iexists d3; iexact H3
  · rw [exists_held h0]
    by_cases h3 : t.val % 4 = 3
    · rw [leaves2_3_live V c t h3, acc2_step V c t.val t.isLt h0]
      iintro ⟨⟨HS, HR, Hg⟩, Ho, ⟨%d0, H0⟩, ⟨%d1, H1⟩, ⟨%d2, H2⟩, ⟨%d3, H3⟩⟩
      iapply (sound_kernel2_C c _ _ _ _ _ _ _ _ _ _ _ _ (iblk2 V c 0 t) (iblk2 V c 1 t) (iblk2 V c 2 t) _ (acc2 V c (t.val - 1)) _
        (mt (hc2_0 t).mp h0) ((hc2_1 t).mpr h3))
      iframe H0 H1 H2 H3 HS
      iintro ⟨H0, H1, H2, H3, HS⟩
      isplitl [HS HR Hg]; · iexists _; iframe; ipureintro; exact fun _ => (acc2_step V c t.val t.isLt h0).symm
      iframe
    · rw [Dat.leavesExact_idle (dat2 V c) 3 t (idle2_3 t h3) (noflush2_3 t h3)]
      iintro ⟨⟨HS, HR, Hg⟩, Ho, ⟨%d0, H0⟩, ⟨%d1, H1⟩, ⟨%d2, H2⟩, ⟨%d3, H3⟩⟩
      iapply (sound_kernel2_B c _ _ _ _ _ _ _ _ _ _ _ _ (iblk2 V c 0 t) (iblk2 V c 1 t) (iblk2 V c 2 t) _ (acc2 V c (t.val - 1)) _
        (mt (hc2_0 t).mp h0) (mt (hc2_1 t).mp h3))
      iframe H0 H1 H2 H3 HS
      iintro ⟨H0, H1, H2, H3, HS⟩
      isplitl [HS HR Hg]; · iexists _; iframe; ipureintro; exact fun _ => (acc2_step V c t.val t.isLt h0).symm
      iframe; iexists d3; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Phi2 V c 0 from rfl, scopedRest2_split]
  unfold Phi2
  iintro ⟨Hg, ⟨%f, HS⟩, HR⟩
  iexists f; iframe
  ipureintro; exact (absurd (Nat.zero_mod 4) ·)

theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c cfg2.N from rfl, scopedRest2_split]
  unfold Phi2
  iintro ⟨%f, -, HS, HR, Hg⟩
  iframe Hg HR; iexists f; iexact HS

end Cert.KernelIdeal.Hand

end
-- ==== Proof.KI.Seg2.lean ====
import proofs.«405037_j79285096284452_1_alg».proof.Proof.KI.Seg1
import proofs.«405037_j79285096284452_1_alg».proof.Proof.KI.Agg2

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

abbrev W7 : Dev nD → Valuation τ sig (Elt F) := fun c => StableHlo.after hostOps2 (W6 m ρ c)
abbrev Vin2 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N :=
  Pipeline.withArrays_arr spec2 launch2.win.arr_inj c _ _ w
abbrev Vout2 : (c : Dev nD) → (b : Ref sig .tc) → Buf (Elt F) ((c : Thread nD τ).loc b) := fun c b => W8 m ρ c b
theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => Pipeline.withArrays_of_ne spec2 c _ _ b fun w e => hb (Finset.mem_image.mpr ⟨w, Finset.mem_univ _, e⟩)

theorem W8_keep (c : Dev nD) (b : Ref sig .tc) (hb : b ≠ Pipeline.arrRef spec2 3) :
    W8 m ρ c (Proc.devRef .tc b) = W7 m ρ c (Proc.devRef .tc b) :=
  keep_of spec2 launch2.win.arr_inj c _ _ b fun w e => ((dat2 (Vin2 m ρ) c).arrAt_in w
    (match w, e with | ⟨0, _⟩, _ | ⟨1, _⟩, _ | ⟨2, _⟩, _ => rfl | ⟨3, _⟩, e => absurd e.symm hb) _).trans (A_eq2 (Vin2 m ρ) c w)

theorem W7_keep (c : Dev nD) (b : Ref sig .tc) (hb : b ∉ hostOps2_W) :
    W7 m ρ c (Proc.devRef .tc b) = W6 m ρ c (Proc.devRef .tc b) :=
  StableHlo.after_of_writes_sub hostOps2 _ hostOps2_writes hb

end Cert.KernelIdeal.Hand

end
-- ==== Proof.KI.Lin3.lean ====
import proofs.«405037_j79285096284452_1_alg».proof.Proof.Gen.KernelIdeal.Launch
import proofs.«405037_j79285096284452_1_alg».proof.Proof.Gen.KernelIdeal.Skeleton
import Idealize.ShloMosaic.Lib.Pipeline.Value
import Idealize.ShloMosaic.Lib.Tactic

noncomputable section

namespace Cert.KernelIdeal.Hand

open Cert.KernelIdeal.Gen Idealize.ShloMosaic TcCoe Idealize.SL.RA

variable {F : FTy → Type} [FloatOps F]
  (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

local notation "Sₒ" => S1280x128
local notation "eₒ" => EltTy.bf16
local notation "inbₒ" => inb_S1280x128_S1280x128_0_0

variable (x0 : Vec F S1280x128 .f32) (x1 : Vec F S128x128 .f32) (x2 : Vec F S1x128 .f32)

def out3_3 : Vec F Sₒ eₒ :=
  View.canon [⟨.unit ![0, 0] _ inbₒ, k3_pay1 (View.ld x0 (.unit ![0, 0] _ inb_S1280x128_S1280x128_0_0))
    (View.ld x1 (.unit ![0, 0] _ inb_S128x128_S128x128_0_0)) (View.ld x2 (.unit ![0, 0] _ inb_S1x128_S1x128_0_0))⟩]

theorem zeroOff3 : (![0, 0] : Fin 2 → Nat) = fun _ => 0 := by decide

theorem out3_3_eq : out3_3 x0 x1 x2 = k3_pay1 x0 x1 x2 := by
  rw [out3_3, View.canon_unit_zero zeroOff3, View.ld_unit_zero zeroOff3, View.ld_unit_zero zeroOff3, View.ld_unit_zero zeroOff3]

def dat3 : Pipeline.Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (w : Fin cfg3.W) : (dat3 V c).A w = V c (Pipeline.arrRef spec3 w) := rfl

theorem after3_3 (t : Fin cfg3.N) :
    (dat3 V c).after 3 t = out3_3 (iblk3 V c 0 t) (iblk3 V c 1 t) (iblk3 V c 2 t) := by dsimp only [dat3]

theorem before3_in (t : Fin cfg3.N) : ∀ w : Fin cfg3.W, w ≠ 3 → ∀ d, (dat3 V c).before w t d = (dat3 V c).after w t
  | ⟨0, _⟩, _ | ⟨1, _⟩, _ | ⟨2, _⟩, _ => (dat3 V c).before_in_eq_fetched _ rfl (fun _ => rfl) (fun _ _ _ => rfl) (fun _ => rfl) t
  | ⟨3, _⟩, h => absurd rfl h

theorem body_obligation3 : Pipeline.BodyObligation (dat3 V c) defs₀ Variants.none () Set.univ := fun t => by
  simp (disch := decide) only [bigSep_W3, before3_in V c t]
  dsimp only [dat3, owns]
  sl_whnfR [defs₀, Defs.onTc]
  sl_unfold [cc3_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff3 inbₒ _⟩

end Cert.KernelIdeal.Hand
-- ==== Proof.KI.Seg3.lean ====
import proofs.«405037_j79285096284452_1_alg».proof.Proof.KI.Seg2
import proofs.«405037_j79285096284452_1_alg».proof.Proof.KI.Lin3

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

abbrev W9 : Dev nD → Valuation τ sig (Elt F) := fun c => StableHlo.after hostOps3 (W8 m ρ c)
abbrev Vin3 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (Vin3 m ρ) c).arrAt w cfg3.N
theorem W10_arr (c : Dev nD) (w : Fin cfg3.W) :
    W10 m ρ c (Proc.devRef .tc (Pipeline.arrRef spec3 w)) = (dat3 (Vin3 m ρ) c).arrAt w cfg3.N :=
  Pipeline.withArrays_arr spec3 launch3.win.arr_inj c _ _ w
abbrev Vout3 : (c : Dev nD) → (b : Ref sig .tc) → Buf (Elt F) ((c : Thread nD τ).loc b) := fun c b => W10 m ρ c b
theorem hF3 (c : Dev nD) (w : Fin cfg3.W) : (dat3 (Vin3 m ρ) c).arrAt w cfg3.N = Vout3 m ρ c (Pipeline.arrRef spec3 w) :=
  (W10_arr m ρ c w).symm
theorem hrest3 (c : Dev nD) : ∀ b, b ∉ Finset.univ.image (Pipeline.arrRef spec3) → Vout3 m ρ c b = Vin3 m ρ c b :=
  fun b hb => Pipeline.withArrays_of_ne spec3 c _ _ b fun w e => hb (Finset.mem_image.mpr ⟨w, Finset.mem_univ _, e⟩)

theorem W10_keep (c : Dev nD) (b : Ref sig .tc) (hb : b ≠ Pipeline.arrRef spec3 3) :
    W10 m ρ c (Proc.devRef .tc b) = W9 m ρ c (Proc.devRef .tc b) :=
  keep_of spec3 launch3.win.arr_inj c _ _ b fun w e => ((dat3 (Vin3 m ρ) c).arrAt_in w
    (match w, e with | ⟨0, _⟩, _ | ⟨1, _⟩, _ | ⟨2, _⟩, _ => rfl | ⟨3, _⟩, e => absurd e.symm hb) _).trans (A_eq3 (Vin3 m ρ) c w)

theorem W9_keep (c : Dev nD) (b : Ref sig .tc) (hb : b ∉ hostOps3_W) :
    W9 m ρ c (Proc.devRef .tc b) = W8 m ρ c (Proc.devRef .tc b) :=
  StableHlo.after_of_writes_sub hostOps3 _ hostOps3_writes hb

end Cert.KernelIdeal.Hand

end
-- ==== Proof.KI.Agg4.lean ====
import proofs.«405037_j79285096284452_1_alg».proof.Proof.LibWhole
import proofs.«405037_j79285096284452_1_alg».proof.Proof.Gen.KernelIdeal.Launch
import proofs.«405037_j79285096284452_1_alg».proof.Proof.Gen.KernelIdeal.Skeleton
import proofs.«405037_j79285096284452_1_alg».proof.Proof.Gen.KernelIdeal.Points
import Idealize.ShloMosaic.Lib.Pipeline.TableIdle

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev c4_0 (i : grid4.Coords) : Prop := (Scalar.cmpi .ne (Scalar.extui (Scalar.cmpi .eq (BitVec.ofNat 32 (i 1).val) 0#32)) 0#32) = 1#1

theorem hc4_0 : ∀ t : Fin grid4.N, c4_0 (grid4.coords t) ↔ t.val % 4 = 0 := by decide +kernel

theorem hc4_1 : ∀ t : Fin grid4.N, k4_cond2 (grid4.coords t) = 1#1 ↔ t.val % 4 = 3 := by decide +kernel

theorem idle4_3 : ∀ t : Fin grid4.N, t.val % 4 ≠ 3 → idle4 3 (grid4.coords t) = true := by decide +kernel

theorem live4_3 : ∀ t : Fin cfg4.N, t.val % 4 = 3 → cfg4.idle 3 (grid4.coords t) = false :=
  (by decide +kernel : ∀ t : Fin grid4.N, t.val % 4 = 3 → idle4 3 (grid4.coords t) = false)

theorem noflush4_3 (t : Fin cfg4.N) (h : t.val % 4 ≠ 3) : (cfg4.win 3).flush t = false :=
  Bool.eq_false_iff.mpr (mt (flush4_3 t).mp h)

section
variable (c : Dev nD) (E : Set ℕ) (i : grid4.Coords)
  (arg2 : Memref sig .tc .vmem S1280x2560 .bf16) (harg2 : arg2.IsWhole) (arg3 : Memref sig .tc .vmem S2560x128 .bf16) (harg3 : arg3.IsWhole)
  (arg4 : Memref sig .tc .vmem S1x128 .f32) (harg4 : arg4.IsWhole) (arg5 : Memref sig .tc .vmem S1280x128 .f32) (harg5 : arg5.IsWhole)
  (arg6 : Memref sig .tc .vmem S1280x128 .f32) (harg6 : arg6.IsWhole)
  (x0 : Vec F S1280x2560 .bf16) (x1 : Vec F S2560x128 .bf16) (x2 : Vec F S1x128 .f32) (d s : Vec F S1280x128 .f32)

private abbrev Tri (K : PUnit → sProp 𝕄) (acc out : Vec F S1280x128 .f32) : Prop :=
  iprop(owns c.tc arg2 fullShare x0 ∗ owns c.tc arg3 fullShare x1 ∗ owns c.tc arg4 fullShare x2 ∗ owns c.tc arg5 fullShare d
      ∗ owns c.tc arg6 fullShare s
      ∗ (iprop(owns c.tc arg2 fullShare x0 ∗ owns c.tc arg3 fullShare x1 ∗ owns c.tc arg4 fullShare x2 ∗ owns c.tc arg5 fullShare out
          ∗ owns c.tc arg6 fullShare acc) -∗ K ⟨⟩))
    ⊢ wp frame (wpE (defs₀ (F := F)) Variants.none c none) E (cc4_kernel i arg2 harg2 arg3 harg3 arg4 harg4 arg5 harg5 arg6 harg6) K

theorem sound_kernel4_A (K : PUnit → sProp 𝕄) (hc0 : c4_0 i) (hc1 : ¬k4_cond2 i = 1#1) :
    Tri c E i arg2 harg2 arg3 harg3 arg4 harg4 arg5 harg5 arg6 harg6 x0 x1 x2 d s K (k4_pay2 k4_pay1 x0 x1) d := by
  unfold Tri; simp only [cc4_kernel_eq_skeleton]; unfold cc4_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, View.readCov_cons_toLoadRect, readAt_all2, readAt_all2]

theorem sound_kernel4_B (K : PUnit → sProp 𝕄) (hc0 : ¬c4_0 i) (hc1 : ¬k4_cond2 i = 1#1) :
    Tri c E i arg2 harg2 arg3 harg3 arg4 harg4 arg5 harg5 arg6 harg6 x0 x1 x2 d s K (k4_pay2 s x0 x1) d := by
  unfold Tri; simp only [cc4_kernel_eq_skeleton]; unfold cc4_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, readAt_all2, readAt_all2, readAt_all2]

theorem sound_kernel4_C (K : PUnit → sProp 𝕄) (hc0 : ¬c4_0 i) (hc1 : k4_cond2 i = 1#1) :
    Tri c E i arg2 harg2 arg3 harg3 arg4 harg4 arg5 harg5 arg6 harg6 x0 x1 x2 d s K (k4_pay2 s x0 x1) (k4_pay3 (k4_pay2 s x0 x1) x2) := by
  unfold Tri; simp only [cc4_kernel_eq_skeleton]; unfold cc4_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]
  · iexists _; iframe; ipureintro
    sl_unfold_run_names
    rw [read_writes_all2, View.readCov_cons_toLoadRect, readAt_all2, readAt_all2, readAt_all2, readAt_all2]
  iexists _; iframe; ipureintro
  sl_unfold_run_names
  rw [read_writes_all2, readAt_all2, readAt_all2, readAt_all2]

end

def accStep4 (c : Dev nD) (n : ℕ) (prev : Vec F S1280x128 .f32) : Vec F S1280x128 .f32 :=
  if h : n < cfg4.N then k4_pay2 (if n % 4 = 0 then k4_pay1 else prev) (iblk4 V c 0 ⟨n, h⟩) (iblk4 V c 1 ⟨n, h⟩) else prev
def acc4 (c : Dev nD) : ℕ → Vec F S1280x128 .f32
  | 0 => accStep4 V c 0 k4_pay1
  | n + 1 => accStep4 V c (n + 1) (acc4 c n)
theorem acc4_reset (c : Dev nD) (n : ℕ) (hn : n < cfg4.N) (h0 : n % 4 = 0) :
    acc4 V c n = k4_pay2 k4_pay1 (iblk4 V c 0 ⟨n, hn⟩) (iblk4 V c 1 ⟨n, hn⟩) := by
  cases n <;> (unfold acc4 accStep4; rw [dif_pos hn, if_pos h0])
theorem acc4_step (c : Dev nD) (n : ℕ) (hn : n < cfg4.N) (h0 : n % 4 ≠ 0) :
    acc4 V c n = k4_pay2 (acc4 V c (n - 1)) (iblk4 V c 0 ⟨n, hn⟩) (iblk4 V c 1 ⟨n, hn⟩) := by
  cases n with
  | zero => exact absurd rfl h0
  | succ n => rw [Nat.add_sub_cancel, acc4, accStep4, dif_pos hn, if_neg h0]

def Phi4 (c : Dev nD) (n : ℕ) : sProp 𝕄 :=
  iprop(∃ f : Buf (Elt F) ((c : Thread nD τ).loc cc4_scratch0), ⌜n % 4 ≠ 0 → f = acc4 V c (n - 1)⌝
    ∗ (((c : Thread nD τ).loc cc4_scratch0) ↦{fullShare} f)
    ∗ Pipeline.scopedRestBut (Ix := Unit) (Name := ℕ) (U := UR sig nD τ) (Lvl := ℕ) (Val := Elt F) spec4 c [cc4_scratch0]
    ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val) (iblk4 V c 2 t)
  Φ t := Phi4 V c t.val
  q _ := fullShare
  owed _ := 0

theorem A_eq4 (c : Dev nD) (w : Fin cfg4.W) : (dat4 V c).A w = V c (Pipeline.arrRef spec4 w) :=
  rfl

theorem after4_3 (c : Dev nD) (t : Fin cfg4.N) : (dat4 V c).after 3 t = k4_pay3 (acc4 V c t.val) (iblk4 V c 2 t) := rfl

theorem before4_in (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨?_, ?_, ?_⟩ <;>
    exact fun d => (dat4 V c).before_in_eq_fetched _ rfl (fun _ => rfl) (fun _ _ _ => rfl) (fun _ => rfl) t d

theorem leaves4_3_live (c : Dev nD) (t : Fin cfg4.N) (h : t.val % 4 = 3) :
    (dat4 V c).leavesExact 3 t = owns c.tc (st4_3 t) fullShare (k4_pay3 (acc4 V c t.val) (iblk4 V c 2 t)) := by
  rw [← after4_3]; unfold Dat.leavesExact; rw [live4_3 t h]

theorem sound_body4 (c : Dev nD) (t : Fin cfg4.N) :
    iprop((dat4 V c).Φ t.castSucc ∗ (dat4 V c).owesAt () t.castSucc
      ∗ (∃ d, owns c.tc (st4_0 t) fullShare ((dat4 V c).before 0 t d))
      ∗ (∃ d, owns c.tc (st4_1 t) fullShare ((dat4 V c).before 1 t d))
      ∗ (∃ d, owns c.tc (st4_2 t) fullShare ((dat4 V c).before 2 t d))
      ∗ (∃ d, owns c.tc (st4_3 t) fullShare ((dat4 V c).before 3 t d)))
    ⊢ wp frame (wpE (defs₀ (F := F)) Variants.none c none) Set.univ (bodyAt4 t) fun _ =>
      iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t) := by
  unfold bodyAt4
  simp only [before4_in V c]
  rw [show (dat4 V c).owesAt () t.succ = (dat4 V c).owesAt () t.castSucc from rfl,
    show (dat4 V c).Φ t.succ = Phi4 V c (t.val + 1) from rfl,
    show (dat4 V c).Φ t.castSucc = Phi4 V c t.val from rfl,
    show (dat4 V c).leavesExact 0 t = owns c.tc (st4_0 t) fullShare (iblk4 V c 0 t) from rfl,
    show (dat4 V c).leavesExact 1 t = owns c.tc (st4_1 t) fullShare (iblk4 V c 1 t) from rfl,
    show (dat4 V c).leavesExact 2 t = owns c.tc (st4_2 t) fullShare (iblk4 V c 2 t) from rfl]
  unfold Phi4
  simp only [← owns_whole]
  by_cases h0 : t.val % 4 = 0
  · have h3 : t.val % 4 ≠ 3 := by omega
    rw [Dat.leavesExact_idle (dat4 V c) 3 t (idle4_3 t h3) (noflush4_3 t h3)]
    iintro ⟨⟨%f, -, HS, HR, Hg⟩, Ho, ⟨%d0, H0⟩, ⟨%d1, H1⟩, ⟨%d2, H2⟩, ⟨%d3, H3⟩⟩
    iapply (sound_kernel4_A c _ _ _ _ _ _ _ _ _ _ _ _ (iblk4 V c 0 t) (iblk4 V c 1 t) (iblk4 V c 2 t) _ f _ ((hc4_0 t).mpr h0) (mt (hc4_1 t).mp h3))
    iframe H0 H1 H2 H3 HS
    iintro ⟨H0, H1, H2, H3, HS⟩
    isplitl [HS HR Hg]; · iexists _; iframe; ipureintro; exact fun _ => (acc4_reset V c t.val t.isLt h0).symm
    iframe; iexists d3; iexact H3
  · rw [exists_held h0]
    by_cases h3 : t.val % 4 = 3
    · rw [leaves4_3_live V c t h3, acc4_step V c t.val t.isLt h0]
      iintro ⟨⟨HS, HR, Hg⟩, Ho, ⟨%d0, H0⟩, ⟨%d1, H1⟩, ⟨%d2, H2⟩, ⟨%d3, H3⟩⟩
      iapply (sound_kernel4_C c _ _ _ _ _ _ _ _ _ _ _ _ (iblk4 V c 0 t) (iblk4 V c 1 t) (iblk4 V c 2 t) _ (acc4 V c (t.val - 1)) _
        (mt (hc4_0 t).mp h0) ((hc4_1 t).mpr h3))
      iframe H0 H1 H2 H3 HS
      iintro ⟨H0, H1, H2, H3, HS⟩
      isplitl [HS HR Hg]; · iexists _; iframe; ipureintro; exact fun _ => (acc4_step V c t.val t.isLt h0).symm
      iframe
    · rw [Dat.leavesExact_idle (dat4 V c) 3 t (idle4_3 t h3) (noflush4_3 t h3)]
      iintro ⟨⟨HS, HR, Hg⟩, Ho, ⟨%d0, H0⟩, ⟨%d1, H1⟩, ⟨%d2, H2⟩, ⟨%d3, H3⟩⟩
      iapply (sound_kernel4_B c _ _ _ _ _ _ _ _ _ _ _ _ (iblk4 V c 0 t) (iblk4 V c 1 t) (iblk4 V c 2 t) _ (acc4 V c (t.val - 1)) _
        (mt (hc4_0 t).mp h0) (mt (hc4_1 t).mp h3))
      iframe H0 H1 H2 H3 HS
      iintro ⟨H0, H1, H2, H3, HS⟩
      isplitl [HS HR Hg]; · iexists _; iframe; ipureintro; exact fun _ => (acc4_step V c t.val t.isLt h0).symm
      iframe; iexists d3; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, scopedRest4_split]
  unfold Phi4
  iintro ⟨Hg, ⟨%f, HS⟩, HR⟩
  iexists f; iframe
  ipureintro; exact (absurd (Nat.zero_mod 4) ·)

theorem hout4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c cfg4.N from rfl, scopedRest4_split]
  unfold Phi4
  iintro ⟨%f, -, HS, HR, Hg⟩
  iframe Hg HR; iexists f; iexact HS

end Cert.KernelIdeal.Hand

end
-- ==== Proof.KI.Seg4.lean ====
import proofs.«405037_j79285096284452_1_alg».proof.Proof.KI.Seg3
import proofs.«405037_j79285096284452_1_alg».proof.Proof.KI.Agg4

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

abbrev W11 : Dev nD → Valuation τ sig (Elt F) := fun c => StableHlo.after hostOps4 (W10 m ρ c)
abbrev Vin4 : (c : Dev nD) → (b : Ref sig .tc) → Buf (Elt F) ((c : Thread nD τ).loc b) := fun c b => W11 m ρ c b

def W12 (c : Dev nD) : Valuation τ sig (Elt F) :=
  Pipeline.withArrays spec4 c (W11 m ρ c) fun w => (dat4 (Vin4 m ρ) c).arrAt w cfg4.N
theorem W12_arr (c : Dev nD) (w : Fin cfg4.W) :
    W12 m ρ c (Proc.devRef .tc (Pipeline.arrRef spec4 w)) = (dat4 (Vin4 m ρ) c).arrAt w cfg4.N :=
  Pipeline.withArrays_arr spec4 launch4.win.arr_inj c _ _ w
abbrev Vout4 : (c : Dev nD) → (b : Ref sig .tc) → Buf (Elt F) ((c : Thread nD τ).loc b) := fun c b => W12 m ρ c b
theorem hF4 (c : Dev nD) (w : Fin cfg4.W) : (dat4 (Vin4 m ρ) c).arrAt w cfg4.N = Vout4 m ρ c (Pipeline.arrRef spec4 w) :=
  (W12_arr m ρ c w).symm
theorem hrest4 (c : Dev nD) : ∀ b, b ∉ Finset.univ.image (Pipeline.arrRef spec4) → Vout4 m ρ c b = Vin4 m ρ c b :=
  fun b hb => Pipeline.withArrays_of_ne spec4 c _ _ b fun w e => hb (Finset.mem_image.mpr ⟨w, Finset.mem_univ _, e⟩)

theorem W12_keep (c : Dev nD) (b : Ref sig .tc) (hb : b ≠ Pipeline.arrRef spec4 3) :
    W12 m ρ c (Proc.devRef .tc b) = W11 m ρ c (Proc.devRef .tc b) :=
  keep_of spec4 launch4.win.arr_inj c _ _ b fun w e => ((dat4 (Vin4 m ρ) c).arrAt_in w
    (match w, e with | ⟨0, _⟩, _ | ⟨1, _⟩, _ | ⟨2, _⟩, _ => rfl | ⟨3, _⟩, e => absurd e.symm hb) _).trans (A_eq4 (Vin4 m ρ) c w)

theorem W11_keep (c : Dev nD) (b : Ref sig .tc) (hb : b ∉ hostOps4_W) :
    W11 m ρ c (Proc.devRef .tc b) = W10 m ρ c (Proc.devRef .tc b) :=
  StableHlo.after_of_writes_sub hostOps4 _ hostOps4_writes hb

end Cert.KernelIdeal.Hand

end
-- ==== Proof.KI.Lin5.lean ====
import proofs.«405037_j79285096284452_1_alg».proof.Proof.Gen.KernelIdeal.Launch
import proofs.«405037_j79285096284452_1_alg».proof.Proof.Gen.KernelIdeal.Skeleton
import Idealize.ShloMosaic.Lib.Pipeline.Value
import Idealize.ShloMosaic.Lib.Tactic

noncomputable section

namespace Cert.KernelIdeal.Hand

open Cert.KernelIdeal.Gen Idealize.ShloMosaic TcCoe Idealize.SL.RA

variable {F : FTy → Type} [FloatOps F]
  (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

local notation "Sₒ" => S1280x128
local notation "eₒ" => EltTy.bf16
local notation "inbₒ" => inb_S1280x128_S1280x128_0_0

variable (x0 : Vec F S1280x128 .f32) (x1 : Vec F S128x128 .f32) (x2 : Vec F S1x128 .f32)

def out5_3 : Vec F Sₒ eₒ :=
  View.canon [⟨.unit ![0, 0] _ inbₒ, k5_pay1 (View.ld x0 (.unit ![0, 0] _ inb_S1280x128_S1280x128_0_0))
    (View.ld x1 (.unit ![0, 0] _ inb_S128x128_S128x128_0_0)) (View.ld x2 (.unit ![0, 0] _ inb_S1x128_S1x128_0_0))⟩]

theorem zeroOff5 : (![0, 0] : Fin 2 → Nat) = fun _ => 0 := by decide

theorem out5_3_eq : out5_3 x0 x1 x2 = k5_pay1 x0 x1 x2 := by
  rw [out5_3, View.canon_unit_zero zeroOff5, View.ld_unit_zero zeroOff5, View.ld_unit_zero zeroOff5, View.ld_unit_zero zeroOff5]

def dat5 : Pipeline.Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (w : Fin cfg5.W) : (dat5 V c).A w = V c (Pipeline.arrRef spec5 w) := rfl

theorem after5_3 (t : Fin cfg5.N) :
    (dat5 V c).after 3 t = out5_3 (iblk5 V c 0 t) (iblk5 V c 1 t) (iblk5 V c 2 t) := by dsimp only [dat5]

theorem before5_in (t : Fin cfg5.N) : ∀ w : Fin cfg5.W, w ≠ 3 → ∀ d, (dat5 V c).before w t d = (dat5 V c).after w t
  | ⟨0, _⟩, _ | ⟨1, _⟩, _ | ⟨2, _⟩, _ => (dat5 V c).before_in_eq_fetched _ rfl (fun _ => rfl) (fun _ _ _ => rfl) (fun _ => rfl) t
  | ⟨3, _⟩, h => absurd rfl h

theorem body_obligation5 : Pipeline.BodyObligation (dat5 V c) defs₀ Variants.none () Set.univ := fun t => by
  simp (disch := decide) only [bigSep_W5, before5_in V c t]
  dsimp only [dat5, owns]
  sl_whnfR [defs₀, Defs.onTc]
  sl_unfold [cc5_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff5 inbₒ _⟩

end Cert.KernelIdeal.Hand
-- ==== Proof.KI.Seg5.lean ====
import proofs.«405037_j79285096284452_1_alg».proof.Proof.KI.Seg4
import proofs.«405037_j79285096284452_1_alg».proof.Proof.KI.Lin5

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

abbrev W13 : Dev nD → Valuation τ sig (Elt F) := fun c => StableHlo.after hostOps5 (W12 m ρ c)
abbrev Vin5 : (c : Dev nD) → (b : Ref sig .tc) → Buf (Elt F) ((c : Thread nD τ).loc b) := fun c b => W13 m ρ c b

def W14 (c : Dev nD) : Valuation τ sig (Elt F) :=
  Pipeline.withArrays spec5 c (W13 m ρ c) fun w => (dat5 (Vin5 m ρ) c).arrAt w cfg5.N
theorem W14_arr (c : Dev nD) (w : Fin cfg5.W) :
    W14 m ρ c (Proc.devRef .tc (Pipeline.arrRef spec5 w)) = (dat5 (Vin5 m ρ) c).arrAt w cfg5.N :=
  Pipeline.withArrays_arr spec5 launch5.win.arr_inj c _ _ w
abbrev Vout5 : (c : Dev nD) → (b : Ref sig .tc) → Buf (Elt F) ((c : Thread nD τ).loc b) := fun c b => W14 m ρ c b
theorem hF5 (c : Dev nD) (w : Fin cfg5.W) : (dat5 (Vin5 m ρ) c).arrAt w cfg5.N = Vout5 m ρ c (Pipeline.arrRef spec5 w) :=
  (W14_arr m ρ c w).symm
theorem hrest5 (c : Dev nD) : ∀ b, b ∉ Finset.univ.image (Pipeline.arrRef spec5) → Vout5 m ρ c b = Vin5 m ρ c b :=
  fun b hb => Pipeline.withArrays_of_ne spec5 c _ _ b fun w e => hb (Finset.mem_image.mpr ⟨w, Finset.mem_univ _, e⟩)

theorem W14_keep (c : Dev nD) (b : Ref sig .tc) (hb : b ≠ Pipeline.arrRef spec5 3) :
    W14 m ρ c (Proc.devRef .tc b) = W13 m ρ c (Proc.devRef .tc b) :=
  keep_of spec5 launch5.win.arr_inj c _ _ b fun w e => ((dat5 (Vin5 m ρ) c).arrAt_in w
    (match w, e with | ⟨0, _⟩, _ | ⟨1, _⟩, _ | ⟨2, _⟩, _ => rfl | ⟨3, _⟩, e => absurd e.symm hb) _).trans (A_eq5 (Vin5 m ρ) c w)

theorem W13_keep (c : Dev nD) (b : Ref sig .tc) (hb : b ∉ hostOps5_W) :
    W13 m ρ c (Proc.devRef .tc b) = W12 m ρ c (Proc.devRef .tc b) :=
  StableHlo.after_of_writes_sub hostOps5 _ hostOps5_writes hb

end Cert.KernelIdeal.Hand

end
-- ==== Proof.KI.Agg6.lean ====
import proofs.«405037_j79285096284452_1_alg».proof.Proof.LibWhole
import proofs.«405037_j79285096284452_1_alg».proof.Proof.Gen.KernelIdeal.Launch
import proofs.«405037_j79285096284452_1_alg».proof.Proof.Gen.KernelIdeal.Skeleton
import proofs.«405037_j79285096284452_1_alg».proof.Proof.Gen.KernelIdeal.Points
import Idealize.ShloMosaic.Lib.Pipeline.TableIdle

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev c6_0 (i : grid6.Coords) : Prop := (Scalar.cmpi .ne (Scalar.extui (Scalar.cmpi .eq (BitVec.ofNat 32 (i 1).val) 0#32)) 0#32) = 1#1

theorem hc6_0 : ∀ t : Fin grid6.N, c6_0 (grid6.coords t) ↔ t.val % 4 = 0 := by decide +kernel

theorem hc6_1 : ∀ t : Fin grid6.N, k6_cond2 (grid6.coords t) = 1#1 ↔ t.val % 4 = 3 := by decide +kernel

theorem idle6_3 : ∀ t : Fin grid6.N, t.val % 4 ≠ 3 → idle6 3 (grid6.coords t) = true := by decide +kernel

theorem live6_3 : ∀ t : Fin cfg6.N, t.val % 4 = 3 → cfg6.idle 3 (grid6.coords t) = false :=
  (by decide +kernel : ∀ t : Fin grid6.N, t.val % 4 = 3 → idle6 3 (grid6.coords t) = false)

theorem noflush6_3 (t : Fin cfg6.N) (h : t.val % 4 ≠ 3) : (cfg6.win 3).flush t = false :=
  Bool.eq_false_iff.mpr (mt (flush6_3 t).mp h)

section
variable (c : Dev nD) (E : Set ℕ) (i : grid6.Coords)
  (arg2 : Memref sig .tc .vmem S1280x2560 .bf16) (harg2 : arg2.IsWhole) (arg3 : Memref sig .tc .vmem S2560x128 .bf16) (harg3 : arg3.IsWhole)
  (arg4 : Memref sig .tc .vmem S1x128 .f32) (harg4 : arg4.IsWhole) (arg5 : Memref sig .tc .vmem S1280x128 .f32) (harg5 : arg5.IsWhole)
  (arg6 : Memref sig .tc .vmem S1280x128 .f32) (harg6 : arg6.IsWhole)
  (x0 : Vec F S1280x2560 .bf16) (x1 : Vec F S2560x128 .bf16) (x2 : Vec F S1x128 .f32) (d s : Vec F S1280x128 .f32)

private abbrev Tri (K : PUnit → sProp 𝕄) (acc out : Vec F S1280x128 .f32) : Prop :=
  iprop(owns c.tc arg2 fullShare x0 ∗ owns c.tc arg3 fullShare x1 ∗ owns c.tc arg4 fullShare x2 ∗ owns c.tc arg5 fullShare d
      ∗ owns c.tc arg6 fullShare s
      ∗ (iprop(owns c.tc arg2 fullShare x0 ∗ owns c.tc arg3 fullShare x1 ∗ owns c.tc arg4 fullShare x2 ∗ owns c.tc arg5 fullShare out
          ∗ owns c.tc arg6 fullShare acc) -∗ K ⟨⟩))
    ⊢ wp frame (wpE (defs₀ (F := F)) Variants.none c none) E (cc6_kernel i arg2 harg2 arg3 harg3 arg4 harg4 arg5 harg5 arg6 harg6) K

theorem sound_kernel6_A (K : PUnit → sProp 𝕄) (hc0 : c6_0 i) (hc1 : ¬k6_cond2 i = 1#1) :
    Tri c E i arg2 harg2 arg3 harg3 arg4 harg4 arg5 harg5 arg6 harg6 x0 x1 x2 d s K (k6_pay2 k6_pay1 x0 x1) d := by
  unfold Tri; simp only [cc6_kernel_eq_skeleton]; unfold cc6_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, View.readCov_cons_toLoadRect, readAt_all2, readAt_all2]

theorem sound_kernel6_B (K : PUnit → sProp 𝕄) (hc0 : ¬c6_0 i) (hc1 : ¬k6_cond2 i = 1#1) :
    Tri c E i arg2 harg2 arg3 harg3 arg4 harg4 arg5 harg5 arg6 harg6 x0 x1 x2 d s K (k6_pay2 s x0 x1) d := by
  unfold Tri; simp only [cc6_kernel_eq_skeleton]; unfold cc6_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  sl_unfold_run_names
  rw [read_writes_all2, readAt_all2, readAt_all2, readAt_all2]

theorem sound_kernel6_C (K : PUnit → sProp 𝕄) (hc0 : ¬c6_0 i) (hc1 : k6_cond2 i = 1#1) :
    Tri c E i arg2 harg2 arg3 harg3 arg4 harg4 arg5 harg5 arg6 harg6 x0 x1 x2 d s K (k6_pay2 s x0 x1) (k6_pay3 (k6_pay2 s x0 x1) x2) := by
  unfold Tri; simp only [cc6_kernel_eq_skeleton]; unfold cc6_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]
  · iexists _; iframe; ipureintro
    sl_unfold_run_names
    rw [read_writes_all2, View.readCov_cons_toLoadRect, readAt_all2, readAt_all2, readAt_all2, readAt_all2]
  iexists _; iframe; ipureintro
  sl_unfold_run_names
  rw [read_writes_all2, readAt_all2, readAt_all2, readAt_all2]

end

def accStep6 (c : Dev nD) (n : ℕ) (prev : Vec F S1280x128 .f32) : Vec F S1280x128 .f32 :=
  if h : n < cfg6.N then k6_pay2 (if n % 4 = 0 then k6_pay1 else prev) (iblk6 V c 0 ⟨n, h⟩) (iblk6 V c 1 ⟨n, h⟩) else prev
def acc6 (c : Dev nD) : ℕ → Vec F S1280x128 .f32
  | 0 => accStep6 V c 0 k6_pay1
  | n + 1 => accStep6 V c (n + 1) (acc6 c n)
theorem acc6_reset (c : Dev nD) (n : ℕ) (hn : n < cfg6.N) (h0 : n % 4 = 0) :
    acc6 V c n = k6_pay2 k6_pay1 (iblk6 V c 0 ⟨n, hn⟩) (iblk6 V c 1 ⟨n, hn⟩) := by
  cases n <;> (unfold acc6 accStep6; rw [dif_pos hn, if_pos h0])
theorem acc6_step (c : Dev nD) (n : ℕ) (hn : n < cfg6.N) (h0 : n % 4 ≠ 0) :
    acc6 V c n = k6_pay2 (acc6 V c (n - 1)) (iblk6 V c 0 ⟨n, hn⟩) (iblk6 V c 1 ⟨n, hn⟩) := by
  cases n with
  | zero => exact absurd rfl h0
  | succ n => rw [Nat.add_sub_cancel, acc6, accStep6, dif_pos hn, if_neg h0]

def Phi6 (c : Dev nD) (n : ℕ) : sProp 𝕄 :=
  iprop(∃ f : Buf (Elt F) ((c : Thread nD τ).loc cc6_scratch0), ⌜n % 4 ≠ 0 → f = acc6 V c (n - 1)⌝
    ∗ (((c : Thread nD τ).loc cc6_scratch0) ↦{fullShare} f)
    ∗ Pipeline.scopedRestBut (Ix := Unit) (Name := ℕ) (U := UR sig nD τ) (Lvl := ℕ) (Val := Elt F) spec6 c [cc6_scratch0]
    ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (acc6 V c t.val) (iblk6 V c 2 t)
  Φ t := Phi6 V c t.val
  q _ := fullShare
  owed _ := 0

theorem A_eq6 (c : Dev nD) (w : Fin cfg6.W) : (dat6 V c).A w = V c (Pipeline.arrRef spec6 w) :=
  rfl

theorem after6_3 (c : Dev nD) (t : Fin cfg6.N) : (dat6 V c).after 3 t = k6_pay3 (acc6 V c t.val) (iblk6 V c 2 t) := rfl

theorem before6_in (c : Dev nD) (t : Fin cfg6.N) :
    (∀ d, (dat6 V c).before 0 t d = iblk6 V c 0 t) ∧ (∀ d, (dat6 V c).before 1 t d = iblk6 V c 1 t)
      ∧ ∀ d, (dat6 V c).before 2 t d = iblk6 V c 2 t := by
  refine ⟨?_, ?_, ?_⟩ <;>
    exact fun d => (dat6 V c).before_in_eq_fetched _ rfl (fun _ => rfl) (fun _ _ _ => rfl) (fun _ => rfl) t d

theorem leaves6_3_live (c : Dev nD) (t : Fin cfg6.N) (h : t.val % 4 = 3) :
    (dat6 V c).leavesExact 3 t = owns c.tc (st6_3 t) fullShare (k6_pay3 (acc6 V c t.val) (iblk6 V c 2 t)) := by
  rw [← after6_3]; unfold Dat.leavesExact; rw [live6_3 t h]

theorem sound_body6 (c : Dev nD) (t : Fin cfg6.N) :
    iprop((dat6 V c).Φ t.castSucc ∗ (dat6 V c).owesAt () t.castSucc
      ∗ (∃ d, owns c.tc (st6_0 t) fullShare ((dat6 V c).before 0 t d))
      ∗ (∃ d, owns c.tc (st6_1 t) fullShare ((dat6 V c).before 1 t d))
      ∗ (∃ d, owns c.tc (st6_2 t) fullShare ((dat6 V c).before 2 t d))
      ∗ (∃ d, owns c.tc (st6_3 t) fullShare ((dat6 V c).before 3 t d)))
    ⊢ wp frame (wpE (defs₀ (F := F)) Variants.none c none) Set.univ (bodyAt6 t) fun _ =>
      iprop((dat6 V c).Φ t.succ ∗ (dat6 V c).owesAt () t.succ
        ∗ (dat6 V c).leavesExact 0 t ∗ (dat6 V c).leavesExact 1 t ∗ (dat6 V c).leavesExact 2 t ∗ (dat6 V c).leavesExact 3 t) := by
  unfold bodyAt6
  simp only [before6_in V c]
  rw [show (dat6 V c).owesAt () t.succ = (dat6 V c).owesAt () t.castSucc from rfl,
    show (dat6 V c).Φ t.succ = Phi6 V c (t.val + 1) from rfl,
    show (dat6 V c).Φ t.castSucc = Phi6 V c t.val from rfl,
    show (dat6 V c).leavesExact 0 t = owns c.tc (st6_0 t) fullShare (iblk6 V c 0 t) from rfl,
    show (dat6 V c).leavesExact 1 t = owns c.tc (st6_1 t) fullShare (iblk6 V c 1 t) from rfl,
    show (dat6 V c).leavesExact 2 t = owns c.tc (st6_2 t) fullShare (iblk6 V c 2 t) from rfl]
  unfold Phi6
  simp only [← owns_whole]
  by_cases h0 : t.val % 4 = 0
  · have h3 : t.val % 4 ≠ 3 := by omega
    rw [Dat.leavesExact_idle (dat6 V c) 3 t (idle6_3 t h3) (noflush6_3 t h3)]
    iintro ⟨⟨%f, -, HS, HR, Hg⟩, Ho, ⟨%d0, H0⟩, ⟨%d1, H1⟩, ⟨%d2, H2⟩, ⟨%d3, H3⟩⟩
    iapply (sound_kernel6_A c _ _ _ _ _ _ _ _ _ _ _ _ (iblk6 V c 0 t) (iblk6 V c 1 t) (iblk6 V c 2 t) _ f _ ((hc6_0 t).mpr h0) (mt (hc6_1 t).mp h3))
    iframe H0 H1 H2 H3 HS
    iintro ⟨H0, H1, H2, H3, HS⟩
    isplitl [HS HR Hg]; · iexists _; iframe; ipureintro; exact fun _ => (acc6_reset V c t.val t.isLt h0).symm
    iframe; iexists d3; iexact H3
  · rw [exists_held h0]
    by_cases h3 : t.val % 4 = 3
    · rw [leaves6_3_live V c t h3, acc6_step V c t.val t.isLt h0]
      iintro ⟨⟨HS, HR, Hg⟩, Ho, ⟨%d0, H0⟩, ⟨%d1, H1⟩, ⟨%d2, H2⟩, ⟨%d3, H3⟩⟩
      iapply (sound_kernel6_C c _ _ _ _ _ _ _ _ _ _ _ _ (iblk6 V c 0 t) (iblk6 V c 1 t) (iblk6 V c 2 t) _ (acc6 V c (t.val - 1)) _
        (mt (hc6_0 t).mp h0) ((hc6_1 t).mpr h3))
      iframe H0 H1 H2 H3 HS
      iintro ⟨H0, H1, H2, H3, HS⟩
      isplitl [HS HR Hg]; · iexists _; iframe; ipureintro; exact fun _ => (acc6_step V c t.val t.isLt h0).symm
      iframe
    · rw [Dat.leavesExact_idle (dat6 V c) 3 t (idle6_3 t h3) (noflush6_3 t h3)]
      iintro ⟨⟨HS, HR, Hg⟩, Ho, ⟨%d0, H0⟩, ⟨%d1, H1⟩, ⟨%d2, H2⟩, ⟨%d3, H3⟩⟩
      iapply (sound_kernel6_B c _ _ _ _ _ _ _ _ _ _ _ _ (iblk6 V c 0 t) (iblk6 V c 1 t) (iblk6 V c 2 t) _ (acc6 V c (t.val - 1)) _
        (mt (hc6_0 t).mp h0) (mt (hc6_1 t).mp h3))
      iframe H0 H1 H2 H3 HS
      iintro ⟨H0, H1, H2, H3, HS⟩
      isplitl [HS HR Hg]; · iexists _; iframe; ipureintro; exact fun _ => (acc6_step V c t.val t.isLt h0).symm
      iframe; iexists d3; iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) :
    iprop((∃ r, prngReg c r) ∗ Pipeline.scopedRest (Ix := Unit) (Name := ℕ) (U := UR sig nD τ) (Lvl := ℕ) (Val := Elt F) spec6 c)
      ⊢ (dat6 V c).Φ 0 := by
  rw [show (dat6 V c).Φ 0 = Phi6 V c 0 from rfl, scopedRest6_split]
  unfold Phi6
  iintro ⟨Hg, ⟨%f, HS⟩, HR⟩
  iexists f; iframe
  ipureintro; exact (absurd (Nat.zero_mod 4) ·)

theorem hout6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = Phi6 V c cfg6.N from rfl, scopedRest6_split]
  unfold Phi6
  iintro ⟨%f, -, HS, HR, Hg⟩
  iframe Hg HR; iexists f; iexact HS

end Cert.KernelIdeal.Hand

end
-- ==== Proof.KI.Seg6.lean ====
import proofs.«405037_j79285096284452_1_alg».proof.Proof.KI.Seg5
import proofs.«405037_j79285096284452_1_alg».proof.Proof.KI.Agg6

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

abbrev W15 : Dev nD → Valuation τ sig (Elt F) := fun c => StableHlo.after hostOps6 (W14 m ρ c)
abbrev Vin6 : (c : Dev nD) → (b : Ref sig .tc) → Buf (Elt F) ((c : Thread nD τ).loc b) := fun c b => W15 m ρ c b

def W16 (c : Dev nD) : Valuation τ sig (Elt F) :=
  Pipeline.withArrays spec6 c (W15 m ρ c) fun w => (dat6 (Vin6 m ρ) c).arrAt w cfg6.N
theorem W16_arr (c : Dev nD) (w : Fin cfg6.W) :
    W16 m ρ c (Proc.devRef .tc (Pipeline.arrRef spec6 w)) = (dat6 (Vin6 m ρ) c).arrAt w cfg6.N :=
  Pipeline.withArrays_arr spec6 launch6.win.arr_inj c _ _ w
abbrev Vout6 : (c : Dev nD) → (b : Ref sig .tc) → Buf (Elt F) ((c : Thread nD τ).loc b) := fun c b => W16 m ρ c b
theorem hF6 (c : Dev nD) (w : Fin cfg6.W) : (dat6 (Vin6 m ρ) c).arrAt w cfg6.N = Vout6 m ρ c (Pipeline.arrRef spec6 w) :=
  (W16_arr m ρ c w).symm
theorem hrest6 (c : Dev nD) : ∀ b, b ∉ Finset.univ.image (Pipeline.arrRef spec6) → Vout6 m ρ c b = Vin6 m ρ c b :=
  fun b hb => Pipeline.withArrays_of_ne spec6 c _ _ b fun w e => hb (Finset.mem_image.mpr ⟨w, Finset.mem_univ _, e⟩)

theorem W16_keep (c : Dev nD) (b : Ref sig .tc) (hb : b ≠ Pipeline.arrRef spec6 3) :
    W16 m ρ c (Proc.devRef .tc b) = W15 m ρ c (Proc.devRef .tc b) :=
  keep_of spec6 launch6.win.arr_inj c _ _ b fun w e => ((dat6 (Vin6 m ρ) c).arrAt_in w
    (match w, e with | ⟨0, _⟩, _ | ⟨1, _⟩, _ | ⟨2, _⟩, _ => rfl | ⟨3, _⟩, e => absurd e.symm hb) _).trans (A_eq6 (Vin6 m ρ) c w)

theorem W15_keep (c : Dev nD) (b : Ref sig .tc) (hb : b ∉ hostOps6_W) :
    W15 m ρ c (Proc.devRef .tc b) = W14 m ρ c (Proc.devRef .tc b) :=
  StableHlo.after_of_writes_sub hostOps6 _ hostOps6_writes hb

end Cert.KernelIdeal.Hand

end
-- ==== Proof.KI.Lin7.lean ====
import proofs.«405037_j79285096284452_1_alg».proof.Proof.Gen.KernelIdeal.Launch
import proofs.«405037_j79285096284452_1_alg».proof.Proof.Gen.KernelIdeal.Skeleton
import Idealize.ShloMosaic.Lib.Pipeline.Value
import Idealize.ShloMosaic.Lib.Tactic

noncomputable section

namespace Cert.KernelIdeal.Hand

open Cert.KernelIdeal.Gen Idealize.ShloMosaic TcCoe Idealize.SL.RA

variable {F : FTy → Type} [FloatOps F]
  (V : (c : Dev nD) → (b : Ref sig .tc) → Buf (Elt F) ((c : Thread nD τ).loc b)) (c : Dev nD)

def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

local notation "Sₒ" => S1280x64
local notation "eₒ" => EltTy.f32
local notation "inbₒ" => inb_S1280x64_S1280x64_0_0

variable (x0 : Vec F S1280x128 .f32) (x1 : Vec F S128x64 .f32) (x2 : Vec F S1x64 .f32)

def out7_3 : Vec F Sₒ eₒ :=
  View.canon [⟨.unit ![0, 0] _ inbₒ, k7_pay1 (View.ld x0 (.unit ![0, 0] _ inb_S1280x128_S1280x128_0_0))
    (View.ld x1 (.unit ![0, 0] _ inb_S128x64_S128x64_0_0)) (View.ld x2 (.unit ![0, 0] _ inb_S1x64_S1x64_0_0))⟩]

theorem zeroOff7 : (![0, 0] : Fin 2 → Nat) = fun _ => 0 := by decide

theorem out7_3_eq : out7_3 x0 x1 x2 = k7_pay1 x0 x1 x2 := by
  rw [out7_3, View.canon_unit_zero zeroOff7, View.ld_unit_zero zeroOff7, View.ld_unit_zero zeroOff7, View.ld_unit_zero zeroOff7]

def dat7 : Pipeline.Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (w : Fin cfg7.W) : (dat7 V c).A w = V c (Pipeline.arrRef spec7 w) := rfl

theorem after7_3 (t : Fin cfg7.N) :
    (dat7 V c).after 3 t = out7_3 (iblk7 V c 0 t) (iblk7 V c 1 t) (iblk7 V c 2 t) := by dsimp only [dat7]

theorem before7_in (t : Fin cfg7.N) : ∀ w : Fin cfg7.W, w ≠ 3 → ∀ d, (dat7 V c).before w t d = (dat7 V c).after w t
  | ⟨0, _⟩, _ | ⟨1, _⟩, _ | ⟨2, _⟩, _ => (dat7 V c).before_in_eq_fetched _ rfl (fun _ => rfl) (fun _ _ _ => rfl) (fun _ => rfl) t
  | ⟨3, _⟩, h => absurd rfl h

theorem body_obligation7 : Pipeline.BodyObligation (dat7 V c) defs₀ Variants.none () Set.univ := fun t => by
  simp (disch := decide) only [bigSep_W7, before7_in V c t]
  dsimp only [dat7, owns]
  sl_whnfR [defs₀, Defs.onTc]
  sl_unfold [cc7_kernel]
  iintro ⟨HΦ, Ho, ⟨%d0, %f0, %e0, H0⟩, ⟨%d1, %f1, %e1, H1⟩, ⟨%d2, %f2, %e2, H2⟩, ⟨%d3, %f3, -, H3⟩⟩
  sl_exec
  sl_step
  iframe HΦ
  isplitl [Ho]; · iexact Ho
  isplitl [H0]; · iexists f0; iframe % ∗
  isplitl [H1]; · iexists f1; iframe % ∗
  isplitl [H2]; · iexists f2; iframe % ∗
  iexists _; iframe ∗; ipureintro
  rw [← e0, ← e1, ← e2]
  exact View.read_writes_eq_canon _ _ _ fun _ => ⟨_, List.mem_singleton_self _, View.mem_set_unit_zero zeroOff7 inbₒ _⟩

end Cert.KernelIdeal.Hand
-- ==== Proof.KI.Seg7.lean ====
import proofs.«405037_j79285096284452_1_alg».proof.Proof.KI.Seg6
import proofs.«405037_j79285096284452_1_alg».proof.Proof.KI.Lin7

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

abbrev W17 : Dev nD → Valuation τ sig (Elt F) := fun c => StableHlo.after hostOps7 (W16 m ρ c)
abbrev Vin7 : (c : Dev nD) → (b : Ref sig .tc) → Buf (Elt F) ((c : Thread nD τ).loc b) := fun c b => W17 m ρ c b

def W18 (c : Dev nD) : Valuation τ sig (Elt F) :=
  Pipeline.withArrays spec7 c (W17 m ρ c) fun w => (dat7 (Vin7 m ρ) c).arrAt w cfg7.N
theorem W18_arr (c : Dev nD) (w : Fin cfg7.W) :
    W18 m ρ c (Proc.devRef .tc (Pipeline.arrRef spec7 w)) = (dat7 (Vin7 m ρ) c).arrAt w cfg7.N :=
  Pipeline.withArrays_arr spec7 launch7.win.arr_inj c _ _ w
abbrev Vout7 : (c : Dev nD) → (b : Ref sig .tc) → Buf (Elt F) ((c : Thread nD τ).loc b) := fun c b => W18 m ρ c b
theorem hF7 (c : Dev nD) (w : Fin cfg7.W) : (dat7 (Vin7 m ρ) c).arrAt w cfg7.N = Vout7 m ρ c (Pipeline.arrRef spec7 w) :=
  (W18_arr m ρ c w).symm
theorem hrest7 (c : Dev nD) : ∀ b, b ∉ Finset.univ.image (Pipeline.arrRef spec7) → Vout7 m ρ c b = Vin7 m ρ c b :=
  fun b hb => Pipeline.withArrays_of_ne spec7 c _ _ b fun w e => hb (Finset.mem_image.mpr ⟨w, Finset.mem_univ _, e⟩)

theorem W18_keep (c : Dev nD) (b : Ref sig .tc) (hb : b ≠ Pipeline.arrRef spec7 3) :
    W18 m ρ c (Proc.devRef .tc b) = W17 m ρ c (Proc.devRef .tc b) :=
  keep_of spec7 launch7.win.arr_inj c _ _ b fun w e => ((dat7 (Vin7 m ρ) c).arrAt_in w
    (match w, e with | ⟨0, _⟩, _ | ⟨1, _⟩, _ | ⟨2, _⟩, _ => rfl | ⟨3, _⟩, e => absurd e.symm hb) _).trans (A_eq7 (Vin7 m ρ) c w)

theorem W17_keep (c : Dev nD) (b : Ref sig .tc) (hb : b ∉ hostOps7_W) :
    W17 m ρ c (Proc.devRef .tc b) = W16 m ρ c (Proc.devRef .tc b) :=
  StableHlo.after_of_writes_sub hostOps7 _ hostOps7_writes hb

end Cert.KernelIdeal.Hand

end
-- ==== Proof.KI.PDats.lean ====
import proofs.«405037_j79285096284452_1_alg».proof.Proof.KI.Seg7
import Idealize.ShloMosaic.Lib.Pipeline.RegionsLoop

noncomputable section

namespace Cert.KernelIdeal.Hand

open Cert.KernelIdeal Cert.KernelIdeal.Gen Idealize.ShloMosaic Idealize.ShloMosaic.TcCoe
open Idealize.SL Idealize.SL.RA Idealize.SL.BI Idealize.SL.BI.BIBase Idealize.SL.ProofMode
open Idealize.ShloMosaic.Pipeline (Dat)

variable {F : FTy → Type} [FloatOps F] (m : (ℓ : Loc nD τ sig) → Buf (Elt F) ℓ) (ρ : Dev nD → PrngReg)

abbrev R (c : Dev nD) : sProp (MT nD τ sig Unit (Elt F) ℕ (UR sig nD τ) ℕ) := iprop((∃ r, prngReg c r) ∗ ∃ W, owes (c : Thread nD τ) (0 : CellTallies nD τ sig Unit) W)
abbrev 𝒱₀ : Variants := Variants.none
abbrev L : GSem nD τ sig → Finset Unit := fun _ => ∅
abbrev lv : GSem nD τ sig → Unit → ℕ := fun _ _ => 0

abbrev W19 : Dev nD → Valuation τ sig (Elt F) := fun c => StableHlo.after hostOps8 (W18 m ρ c)
theorem W19_keep (c : Dev nD) (b : Ref sig .tc) (hb : b ∉ hostOps8_W) :
    W19 m ρ c (Proc.devRef .tc b) = W18 m ρ c (Proc.devRef .tc b) :=
  StableHlo.after_of_writes_sub hostOps8 _ hostOps8_writes hb
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb
theorem W2_keep (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb
theorem W3_keep (c : Dev nD) (b : Ref sig .tc) (hb : b ∉ hostOps0_2_W) :
    W3 m ρ c (Proc.devRef .tc b) = W2 m ρ c (Proc.devRef .tc b) :=
  StableHlo.after_of_writes_sub hostOps0_2 _ hostOps0_2_writes hb

theorem W19_untouched (c : Dev nD) (b : Ref sig .tc)
    (h0 : b ∉ hostOps0_W := by decide) (h0a : b ∉ hostOps0_1_W := by decide) (h0b : b ∉ hostOps0_2_W := by decide)
    (h1 : b ∉ hostOps1_W := by decide) (h2 : b ∉ hostOps2_W := by decide) (h3 : b ∉ hostOps3_W := by decide)
    (h4 : b ∉ hostOps4_W := by decide) (h5 : b ∉ hostOps5_W := by decide) (h6 : b ∉ hostOps6_W := by decide)
    (h7 : b ∉ hostOps7_W := by decide) (h8 : b ∉ hostOps8_W := by decide)
    (r0 : b ≠ Pipeline.arrRef spec0 3 := by decide) (r1 : b ≠ Pipeline.arrRef spec1 3 := by decide)
    (r2 : b ≠ Pipeline.arrRef spec2 3 := by decide) (r3 : b ≠ Pipeline.arrRef spec3 3 := by decide)
    (r4 : b ≠ Pipeline.arrRef spec4 3 := by decide) (r5 : b ≠ Pipeline.arrRef spec5 3 := by decide)
    (r6 : b ≠ Pipeline.arrRef spec6 3 := by decide) (r7 : b ≠ Pipeline.arrRef spec7 3 := by decide) :
    W19 m ρ c (Proc.devRef .tc b) = m ((c : Thread nD τ).loc b) := by
  rw [W19_keep m ρ c b h8, W18_keep m ρ c b r7, W17_keep m ρ c b h7, W16_keep m ρ c b r6, W15_keep m ρ c b h6,
    W14_keep m ρ c b r5, W13_keep m ρ c b h5, W12_keep m ρ c b r4, W11_keep m ρ c b h4, W10_keep m ρ c b r3,
    W9_keep m ρ c b h3, W8_keep m ρ c b r2, W7_keep m ρ c b h2, W6_keep m ρ c b r1, W5_keep m ρ c b h1,
    W4_keep m ρ c b r0, W3_keep m ρ c b h0b, W2_keep m ρ c b h0a, W1_keep m ρ c b h0]

def pdats : (p : Fin 8) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
  | ⟨7, _⟩ => fun c => dat7 (Vin7 m ρ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def regionOf {p : Fin 8} (kit : Pipeline.LaunchFacts (nD := nD) (τ := τ) cfgs p) (Win Wout : Dev nD → Valuation τ sig (Elt F))
    (hbody : ∀ c, Pipeline.BodyObligationLoose (pdats m ρ p c) defs₀ 𝒱₀ () Set.univ)
    (howed : ∀ c t, (pdats m ρ p c).owed t = 0) (hrec : ∀ c x, x ∈ (pdats m ρ p c).recorded 0)
    (hshare : ∀ c w, (pdats m ρ p c).share w = fullShare)
    (hA : ∀ c w, (pdats m ρ p c).A w = Win c (Pipeline.arrRef (cfgs p).spec w))
    (hF : ∀ c w, (pdats m ρ p c).arrAt w (cfgs p).N = Wout c (Pipeline.arrRef (cfgs p).spec w))
    (hrest : ∀ c (b : Ref sig .tc), b ∉ Finset.univ.image (Pipeline.arrRef (cfgs p).spec) → Wout c b = Win c b)
    (hfst : ∀ c, iprop((∃ r, prngReg c r) ∗ Pipeline.scopedRest (cfgs p).spec c) ⊢ (pdats m ρ p c).Φ 0)
    (hlst : ∀ c, (pdats m ρ p c).Φ (Fin.last (cfgs p).N) ⊢ iprop((∃ r, prngReg c r) ∗ Pipeline.scopedRest (cfgs p).spec c)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (cfgs p).spec c fun b => Win c b
  hentry c := by
    have hsplit := Pipeline.arrays_of_unscopedBufs (pcfgs (F := F)) adm (pdats m ρ) kit.win kit.arr_whole c (hshare c) (fun b => Win c b) (hA c)
    rw [Pipeline.unscopedBufs_held] at hsplit
    unfold Pipeline.Dat.owesAt Pipeline.owesWithin
    rw [Pipeline.ownSems0_none, howed c 0]
    iintro ⟨⟨Hub, Hp, %W, HO⟩, -, -⟩
    icases hsplit $$ Hub with ⟨Ha, Hrest⟩
    imodintro
    iframe Ha Hp Hrest
    isplitr; · unfold Pipeline.prefHeld; rw [show (Finset.univ : Finset (Fin 0)) = ∅ from rfl, BI.bigSep_empty]; iempintro
    iexists W; iframe HO; ipureintro; exact fun x _ => Or.inl (hrec c x)
  hin c := by iintro ⟨HX, -, HR⟩; iapply hfst c; iframe
  hout c := by rw [Pipeline.ownSems0_none]; iintro H; icases hlst c $$ H with ⟨HX, HR⟩; iframe; iempintro
  hexit c := by
    have hjoin := Pipeline.unscopedBufs_of_arrays (pcfgs (F := F)) adm
      kit.win kit.arr_whole c (pdats m ρ) (hshare c) (fun b => Win c b) (fun b => Wout c b) ((pdats m ρ p c).arrAt · (cfgs p).N) (hF c) (hrest c)
    rw [Pipeline.unscopedBufs_held] at hjoin
    unfold Pipeline.Dat.owesAt Pipeline.owesWithin
    rw [howed c _]
    iintro ⟨Ha, ⟨%W, -, HO⟩, HY, Hrest⟩
    imodintro
    isplitl [Ha Hrest]
    · iapply hjoin; iframe
    isplitl [HY]; · iexact HY
    iexists W; iexact HO

end Cert.KernelIdeal.Hand

end
-- ==== Proof.KI.Reg0.lean ====
import proofs.«405037_j79285096284452_1_alg».proof.Proof.KI.PDats

noncomputable section

namespace Cert.KernelIdeal.Hand

open Cert.KernelIdeal Cert.KernelIdeal.Gen Idealize.ShloMosaic Idealize.SL.BI

variable {F : FTy → Type} [FloatOps F] (m : (ℓ : Loc nD τ sig) → Buf (Elt F) ℓ) (ρ : Dev nD → PrngReg)

def reg0 : Pipeline.RegionSeg (pcfgs (F := F)) adm (pdats m ρ) () defs₀ 𝒱₀ L lv 0 :=
  regionOf m ρ launch0 (W3 m ρ) (W4 m ρ) (fun c => (body_obligation0 (Vin0 m ρ) c).loose) (fun _ _ => rfl) (fun _ _ => trivial)
    (fun c => (pdats m ρ 0 c).share_full fun _ => rfl) (fun _ _ => rfl) (hF0 m ρ) (hrest0 m ρ) (fun _ => sep_comm) fun _ => sep_comm

end Cert.KernelIdeal.Hand

end
-- ==== Proof.KI.Reg1.lean ====
import proofs.«405037_j79285096284452_1_alg».proof.Proof.KI.PDats

noncomputable section

namespace Cert.KernelIdeal.Hand

open Cert.KernelIdeal Cert.KernelIdeal.Gen Idealize.ShloMosaic Idealize.SL.BI

variable {F : FTy → Type} [FloatOps F] (m : (ℓ : Loc nD τ sig) → Buf (Elt F) ℓ) (ρ : Dev nD → PrngReg)

def reg1 : Pipeline.RegionSeg (pcfgs (F := F)) adm (pdats m ρ) () defs₀ 𝒱₀ L lv 1 :=
  regionOf m ρ launch1 (W5 m ρ) (W6 m ρ) (fun c => (body_obligation1 (Vin1 m ρ) c).loose) (fun _ _ => rfl) (fun _ _ => trivial)
    (fun c => (pdats m ρ 1 c).share_full fun _ => rfl) (fun _ _ => rfl) (hF1 m ρ) (hrest1 m ρ) (fun _ => sep_comm) fun _ => sep_comm

end Cert.KernelIdeal.Hand

end
-- ==== Proof.KI.Reg2.lean ====
import proofs.«405037_j79285096284452_1_alg».proof.Proof.KI.PDats

noncomputable section

namespace Cert.KernelIdeal.Hand

open Cert.KernelIdeal Cert.KernelIdeal.Gen Idealize.ShloMosaic Idealize.SL.BI

variable {F : FTy → Type} [FloatOps F] (m : (ℓ : Loc nD τ sig) → Buf (Elt F) ℓ) (ρ : Dev nD → PrngReg)

def reg2 : Pipeline.RegionSeg (pcfgs (F := F)) adm (pdats m ρ) () defs₀ 𝒱₀ L lv 2 :=
  regionOf m ρ launch2 (W7 m ρ) (W8 m ρ) (fun c => (body_obligation2 (Vin2 m ρ) c).loose) (fun _ _ => rfl) (fun _ _ => trivial)
    (fun c => (pdats m ρ 2 c).share_full fun _ => rfl) (fun _ _ => rfl) (hF2 m ρ) (hrest2 m ρ) (hin2 (Vin2 m ρ)) (hout2 (Vin2 m ρ))

end Cert.KernelIdeal.Hand

end
-- ==== Proof.KI.Reg3.lean ====
import proofs.«405037_j79285096284452_1_alg».proof.Proof.KI.PDats

noncomputable section

namespace Cert.KernelIdeal.Hand

open Cert.KernelIdeal Cert.KernelIdeal.Gen Idealize.ShloMosaic Idealize.SL.BI

variable {F : FTy → Type} [FloatOps F] (m : (ℓ : Loc nD τ sig) → Buf (Elt F) ℓ) (ρ : Dev nD → PrngReg)

def reg3 : Pipeline.RegionSeg (pcfgs (F := F)) adm (pdats m ρ) () defs₀ 𝒱₀ L lv 3 :=
  regionOf m ρ launch3 (W9 m ρ) (W10 m ρ) (fun c => (body_obligation3 (Vin3 m ρ) c).loose) (fun _ _ => rfl) (fun _ _ => trivial)
    (fun c => (pdats m ρ 3 c).share_full fun _ => rfl) (fun _ _ => rfl) (hF3 m ρ) (hrest3 m ρ) (fun _ => sep_comm) fun _ => sep_comm

end Cert.KernelIdeal.Hand

end
-- ==== Proof.KI.Reg4.lean ====
import proofs.«405037_j79285096284452_1_alg».proof.Proof.KI.PDats

noncomputable section

namespace Cert.KernelIdeal.Hand

open Cert.KernelIdeal Cert.KernelIdeal.Gen Idealize.ShloMosaic Idealize.SL.BI

variable {F : FTy → Type} [FloatOps F] (m : (ℓ : Loc nD τ sig) → Buf (Elt F) ℓ) (ρ : Dev nD → PrngReg)

def reg4 : Pipeline.RegionSeg (pcfgs (F := F)) adm (pdats m ρ) () defs₀ 𝒱₀ L lv 4 :=
  regionOf m ρ launch4 (W11 m ρ) (W12 m ρ) (fun c => (body_obligation4 (Vin4 m ρ) c).loose) (fun _ _ => rfl) (fun _ _ => trivial)
    (fun c => (pdats m ρ 4 c).share_full fun _ => rfl) (fun _ _ => rfl) (hF4 m ρ) (hrest4 m ρ) (hin4 (Vin4 m ρ)) (hout4 (Vin4 m ρ))

end Cert.KernelIdeal.Hand

end
-- ==== Proof.KI.Reg5.lean ====
import proofs.«405037_j79285096284452_1_alg».proof.Proof.KI.PDats

noncomputable section

namespace Cert.KernelIdeal.Hand

open Cert.KernelIdeal Cert.KernelIdeal.Gen Idealize.ShloMosaic Idealize.SL.BI

variable {F : FTy → Type} [FloatOps F] (m : (ℓ : Loc nD τ sig) → Buf (Elt F) ℓ) (ρ : Dev nD → PrngReg)

def reg5 : Pipeline.RegionSeg (pcfgs (F := F)) adm (pdats m ρ) () defs₀ 𝒱₀ L lv 5 :=
  regionOf m ρ launch5 (W13 m ρ) (W14 m ρ) (fun c => (body_obligation5 (Vin5 m ρ) c).loose) (fun _ _ => rfl) (fun _ _ => trivial)
    (fun c => (pdats m ρ 5 c).share_full fun _ => rfl) (fun _ _ => rfl) (hF5 m ρ) (hrest5 m ρ) (fun _ => sep_comm) fun _ => sep_comm

end Cert.KernelIdeal.Hand

end
-- ==== Proof.KI.Reg6.lean ====
import proofs.«405037_j79285096284452_1_alg».proof.Proof.KI.PDats

noncomputable section

namespace Cert.KernelIdeal.Hand

open Cert.KernelIdeal Cert.KernelIdeal.Gen Idealize.ShloMosaic Idealize.SL.BI

variable {F : FTy → Type} [FloatOps F] (m : (ℓ : Loc nD τ sig) → Buf (Elt F) ℓ) (ρ : Dev nD → PrngReg)

def reg6 : Pipeline.RegionSeg (pcfgs (F := F)) adm (pdats m ρ) () defs₀ 𝒱₀ L lv 6 :=
  regionOf m ρ launch6 (W15 m ρ) (W16 m ρ) (fun c => (body_obligation6 (Vin6 m ρ) c).loose) (fun _ _ => rfl) (fun _ _ => trivial)
    (fun c => (pdats m ρ 6 c).share_full fun _ => rfl) (fun _ _ => rfl) (hF6 m ρ) (hrest6 m ρ) (hin6 (Vin6 m ρ)) (hout6 (Vin6 m ρ))

end Cert.KernelIdeal.Hand

end
-- ==== Proof.KI.Reg7.lean ====
import proofs.«405037_j79285096284452_1_alg».proof.Proof.KI.PDats

noncomputable section

namespace Cert.KernelIdeal.Hand

open Cert.KernelIdeal Cert.KernelIdeal.Gen Idealize.ShloMosaic Idealize.SL.BI

variable {F : FTy → Type} [FloatOps F] (m : (ℓ : Loc nD τ sig) → Buf (Elt F) ℓ) (ρ : Dev nD → PrngReg)

def reg7 : Pipeline.RegionSeg (pcfgs (F := F)) adm (pdats m ρ) () defs₀ 𝒱₀ L lv 7 :=
  regionOf m ρ launch7 (W17 m ρ) (W18 m ρ) (fun c => (body_obligation7 (Vin7 m ρ) c).loose) (fun _ _ => rfl) (fun _ _ => trivial)
    (fun c => (pdats m ρ 7 c).share_full fun _ => rfl) (fun _ _ => rfl) (hF7 m ρ) (hrest7 m ρ) (fun _ => sep_comm) fun _ => sep_comm

end Cert.KernelIdeal.Hand

end
-- ==== Proof.KI.Run.lean ====
import proofs.«405037_j79285096284452_1_alg».proof.Proof.KI.Reg0
import proofs.«405037_j79285096284452_1_alg».proof.Proof.KI.Reg1
import proofs.«405037_j79285096284452_1_alg».proof.Proof.KI.Reg2
import proofs.«405037_j79285096284452_1_alg».proof.Proof.KI.Reg3
import proofs.«405037_j79285096284452_1_alg».proof.Proof.KI.Reg4
import proofs.«405037_j79285096284452_1_alg».proof.Proof.KI.Reg5
import proofs.«405037_j79285096284452_1_alg».proof.Proof.KI.Reg6
import proofs.«405037_j79285096284452_1_alg».proof.Proof.KI.Reg7

noncomputable section

namespace Cert.KernelIdeal.Hand

open Cert.KernelIdeal Cert.KernelIdeal.Gen Idealize.ShloMosaic Idealize.ShloMosaic.TcCoe Idealize.ShloMosaic.Tactic Idealize.ShloMosaic.Rounds
open Idealize.SL Idealize.SL.BI Idealize.SL.BI.BIBase Idealize.SL.ProofMode Idealize.SL.Sem

variable {F : FTy → Type} [FloatOps F] (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)) ]

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [show main (F := F) c = Pipeline.Seg.run (segs m ρ) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; iintro Hu; imodintro
      isplitl [Hu]; · iapply (show ownU _ ⊢ BI.own (emb₁ _) from .rfl); iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W19 m ρ c) ∗ ∃ r, prngReg c r))
    (hch := by
      repeat refine ⟨fun _ => .rfl, ?_⟩
      exact fun c => sep_assoc')
    (hinit := by
      refine Pipeline.initEach L lv fun c => ?_
      rw [show unscopedBufs c (fun b => m ((c : Thread nD τ).loc b)) = _ from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v50) = W19 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have k (b : Ref sig .tc) (hb : ¬ (Proc.devRef .tc b : DevRef τ sig).isScoped) (e : W19 m ρ c (Proc.devRef .tc b) = m ((c.tc : Thread nD τ).loc b)) :
        r.2.mem ((c.tc : Thread nD τ).loc b) = m ((c.tc : Thread nD τ).loc b) :=
      (h c _ (mem_uc b hb)).trans e
    ⟨h c _ (mem_uc main_v50 (by decide)), k main_arg0 (by decide) (W19_untouched m ρ c _), k main_arg1 (by decide) (W19_untouched m ρ c _),
      k main_arg2 (by decide) (W19_untouched m ρ c _), k main_arg3 (by decide) (W19_untouched m ρ c _),
      k main_arg4 (by decide) (W19_untouched m ρ c _), k main_arg5 (by decide) (W19_untouched m ρ c _),
      k main_arg6 (by decide) (W19_untouched m ρ c _), k main_arg7 (by decide) (W19_untouched m ρ c _),
      k main_arg8 (by decide) (W19_untouched m ρ c _)⟩) (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Hand

end
-- ==== Proof.LibSegmentScatter.lean ====
import Idealize.ShloMosaic.Lib.ValueIdx
import Idealize.ShloMosaic.Lib.StableHlo.Predicate
import Idealize.ShloMosaic.PureOps.Ideal.Laws

noncomputable section

namespace Cert.LibSegmentScatter

open Idealize.ShloMosaic Idealize.ShloMosaic.ValueIdx
open scoped BigOperators

abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

theorem resultIdx?_eq_some_iff {s si u : Shape} (d : ScatterDims s si u) {w : Nat} (j : u.Idx) (idx : IVec si w) (y : s.Idx) :
    d.resultIdx? j idx = some y ↔ ∀ a, d.start j idx a + d.window j a = (y a).val := by
  unfold ScatterDims.resultIdx?
  constructor
  · intro h a
    split at h
    · rename_i hc
      have e : (d.start j idx a + d.window j a).toNat = (y a).val := congrArg (fun f => (f a).val) (Option.some.inj h)
      have := (hc a).1
      omega
    · cases h
  · intro h
    rw [dif_pos fun a => by rw [h a]; exact ⟨Int.natCast_nonneg _, Int.ofNat_lt.2 (y a).isLt⟩]
    exact congrArg some (funext fun a => Fin.ext (by show (d.start j idx a + d.window j a).toNat = _; rw [h a]; rfl))

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

theorem rows_start_zero : (rowScatterDims N E C wf).start (ix2 e k') idx 0 = (idx (ix2 e 0)).toInt := by
  unfold ScatterDims.start
  rw [dif_pos (List.mem_singleton.mpr rfl)]
  exact congrArg (fun i => (idx i).toInt) (funext fun b => Fin.ext (by match b with | ⟨0, _⟩ => rfl | ⟨1, _⟩ => rfl))

theorem rows_resultIdx?_eq_some_iff (v : Fin N) (k : Fin C) :
    (rowScatterDims N E C wf).resultIdx? (ix2 e k') idx = some (ix2 v k)
      ↔ (idx (ix2 e 0)).toInt = (v.val : ℤ) ∧ k' = k := by
  rw [resultIdx?_eq_some_iff, Fin.forall_fin_two, rows_start_zero, Fin.ext_iff]
  show _ + ((0 : ℕ) : ℤ) = (v.val : ℤ) ∧ (0 : ℤ) + (k'.val : ℤ) = (k.val : ℤ) ↔ _
  omega

end Rows

theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

end Cert.LibSegmentScatter

end
-- ==== Proof.LibPairScatter.lean ====
import proofs.«405037_j79285096284452_1_alg».proof.Proof.LibSegmentScatter

noncomputable section

namespace Cert.LibPairScatter

open Idealize.ShloMosaic Idealize.ShloMosaic.ValueIdx Cert.LibSegmentScatter
open scoped BigOperators

abbrev pairScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

export Cert.LibSegmentScatter (sum_idx1)

section Pairs
variable {N M E w : Nat} (wf : ScatterDims.WF ⟨2, ![N, M]⟩ ⟨2, ![E, 2]⟩ ⟨1, ![E]⟩ [] [0, 1] [0, 1] 1)
  (idx : IVec ⟨2, ![E, 2]⟩ w) (e : Fin E)

theorem pairs_start (c : Fin 2) : (pairScatterDims N M E wf).start (ix1 e) idx c = (idx (ix2 e c)).toInt := by
  revert c
  rw [Fin.forall_fin_two]
  constructor <;> unfold ScatterDims.start <;> rw [dif_pos] <;>
    first
    | (show _ ∈ ([0, 1] : List (Fin 2)); decide)
    | exact congrArg (fun i => (idx i).toInt) (funext fun b => Fin.ext (by match b with | ⟨0, _⟩ => rfl | ⟨1, _⟩ => rfl))

theorem pairs_resultIdx?_eq_some_iff (i : Fin N) (j : Fin M) :
    (pairScatterDims N M E wf).resultIdx? (ix1 e) idx = some (ix2 i j)
      ↔ (idx (ix2 e 0)).toInt = (i.val : ℤ) ∧ (idx (ix2 e 1)).toInt = (j.val : ℤ) := by
  rw [resultIdx?_eq_some_iff, Fin.forall_fin_two, pairs_start, pairs_start]
  show _ + ((0 : ℕ) : ℤ) = (i.val : ℤ) ∧ _ + ((0 : ℕ) : ℤ) = (j.val : ℤ) ↔ _
  omega

end Pairs

theorem scatterAdd_pairs_apply {N M E w : Nat} (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd (pairScatterDims N M E wf) x idx upd (ix2 i j)
      = x (ix2 i j) + ∑ e : Fin E,
          if (idx (ix2 e 0)).toInt = (i.val : ℤ) ∧ (idx (ix2 e 1)).toInt = (j.val : ℤ) then upd (ix1 e) else 0 := by
  unfold Ideal.hostScatterAdd
  congr 1
  rw [Finset.sum_filter, sum_idx1]
  refine Finset.sum_congr rfl fun e _ => ?_
  simp only [pairs_resultIdx?_eq_some_iff]

end Cert.LibPairScatter

end
-- ==== Proof.Spec.lean ====
import Idealize.ShloMosaic.Lib.ValueIdx

noncomputable section

namespace Cert.Gcn

open Idealize.ShloMosaic
open scoped BigOperators

abbrev N : ℕ := 10000
abbrev NP : ℕ := 10240
abbrev E : ℕ := 640000

abbrev Mat (r c : ℕ) : Type := Fin r → Fin c → EReal

def mm {n k c : ℕ} (x : Mat n k) (y : Mat k c) : Mat n c := fun i j => ∑ t, x i t * y t j

def lin {n k c : ℕ} (x : Mat n k) (y : Mat k c) (b : Fin c → EReal) : Mat n c := fun i j => mm x y i j + b j

def tanhM {n c : ℕ} (x : Mat n c) : Mat n c := fun i j => Ideal.tanh (x i j)

def pad (x : Mat N 128) : Mat NP 128 := fun i k => if h : i.val < N then x ⟨i.val, h⟩ k else 0

section Graph

variable (s d : Fin E → Fin N) (w : Fin E → EReal)

def adj : Mat NP NP := fun i j => ∑ e, if (d e).val = i.val ∧ (s e).val = j.val then w e else 0

def blk (a : Mat NP NP) (hw : Mat NP 128) (mb : Fin 4) : Mat NP 128 := fun i j =>
  ∑ k : Fin 2560, a i ⟨2560 * mb.val + k.val, by have := mb.isLt; have := k.isLt; show _ < 10240; omega⟩ * hw ⟨2560 * mb.val + k.val, by have := mb.isLt; have := k.isLt; show _ < 10240; omega⟩ j

def aggK (a : Mat NP NP) (hw : Mat NP 128) : Mat NP 128 := fun i j =>
  (((0 + blk a hw 0 i j) + blk a hw 1 i j) + blk a hw 2 i j) + blk a hw 3 i j

def layerK (a : Mat NP NP) (W : Mat 128 128) (b : Fin 128 → EReal) (h : Mat NP 128) : Mat NP 128 :=
  tanhM fun i j => aggK a (lin h W fun _ => 0) i j + b j

def kernelOut (x : Mat N 128) (encW : Mat 128 128) (encb : Fin 128 → EReal) (W0 : Mat 128 128) (b0 : Fin 128 → EReal)
    (W1 : Mat 128 128) (b1 : Fin 128 → EReal) (W2 : Mat 128 128) (b2 : Fin 128 → EReal) (decW : Mat 128 64) (decb : Fin 64 → EReal) :
    Mat N 64 := fun i j =>
  lin (layerK (adj s d w) W2 b2 (layerK (adj s d w) W1 b1 (layerK (adj s d w) W0 b0 (tanhM (lin (pad x) encW encb))))) decW decb
    ⟨i.val, by have h : i.val < 10000 := i.isLt; show _ < 10240; omega⟩ j

def aggR (hw : Mat N 128) : Mat N 128 := fun i j => ∑ e, if d e = i then hw (s e) j * w e else 0

def layerR (W : Mat 128 128) (b : Fin 128 → EReal) (h : Mat N 128) : Mat N 128 :=
  tanhM fun i j => (0 + aggR s d w (mm h W) i j) + b j

def refOut (x : Mat N 128) (encW : Mat 128 128) (encb : Fin 128 → EReal) (W0 : Mat 128 128) (b0 : Fin 128 → EReal)
    (W1 : Mat 128 128) (b1 : Fin 128 → EReal) (W2 : Mat 128 128) (b2 : Fin 128 → EReal) (decW : Mat 128 64) (decb : Fin 64 → EReal) :
    Mat N 64 :=
  lin (layerR s d w W2 b2 (layerR s d w W1 b1 (layerR s d w W0 b0 (tanhM (lin x encW encb))))) decW decb

end Graph

abbrev mat2 {r c : ℕ} (a : (⟨2, ![r, c]⟩ : Shape).Idx → EReal) : Mat r c := fun i j => a (ValueIdx.ix2 i j)

abbrev vec1 {c : ℕ} (a : (⟨1, ![c]⟩ : Shape).Idx → EReal) : Fin c → EReal := fun j => a (ValueIdx.ix1 j)

abbrev mat3 {l r c : ℕ} (a : (⟨3, ![l, r, c]⟩ : Shape).Idx → EReal) (p : Fin l) : Mat r c := fun i j => a (ValueIdx.ix3 p i j)

abbrev row2 {l c : ℕ} (a : (⟨2, ![l, c]⟩ : Shape).Idx → EReal) (p : Fin l) : Fin c → EReal := fun j => a (ValueIdx.ix2 p j)

end Cert.Gcn

end
-- ==== Proof.KI.HostVal.lean ====
import proofs.«405037_j79285096284452_1_alg».proof.Proof.Gen.KernelIdeal.Launch
import proofs.«405037_j79285096284452_1_alg».proof.Proof.LibPairScatter
import proofs.«405037_j79285096284452_1_alg».proof.Proof.Spec
import Idealize.ShloMosaic.Lib.ValueLayout
import Idealize.ShloMosaic.Lib.KernelVsHost

noncomputable section

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx
open scoped BigOperators

variable (W : Valuation τ sig (Elt Ideal))

section Layout
variable {α : Type}

theorem sliceMat_apply {l r c : Nat} (p : Fin l) (x : (⟨3, ![l, r, c]⟩ : Shape).Idx → α)
    (h : (⟨3, ![l, r, c]⟩ : Shape).Slices ![p.val, 0, 0] ⟨3, ![1, r, c]⟩) (k : Fin r) (j : Fin c) :
    extractStridedSlice ⟨3, ![1, r, c]⟩ ![p.val, 0, 0] x h (ix3 0 k j) = x (ix3 p k j) :=
  extractStridedSlice_apply ![p.val, 0, 0] x h (ix3 0 k j) (ix3 p k j) (fun a => match a with
    | ⟨0, _⟩ => by show p.val = p.val + 0; omega
    | ⟨1, _⟩ => by show k.val = 0 + k.val; omega
    | ⟨2, _⟩ => by show j.val = 0 + j.val; omega)

theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 (fun a => a.elim0)

theorem castCol_apply {n : Nat} (x : (⟨1, ![n]⟩ : Shape).Idx → α)
    (h : (⟨1, ![n]⟩ : Shape).BroadcastsInDim ⟨2, ![n, 1]⟩ (![0] : Fin 1 → Fin 2)) (e : Fin n) :
    broadcastInDim ⟨2, ![n, 1]⟩ ![0] h x (ix2 e 0) = x (ix1 e) :=
  broadcastInDim_apply _ h x (ix2 e 0) (ix1 e) (fun a => match a with
    | ⟨0, _⟩ => by
      show e.val = if n = 1 then 0 else e.val
      have := e.isLt
      split <;> omega)

theorem concatCols_apply_zero {n : Nat} (x y : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x⟩, ⟨⟨2, ![n, 1]⟩, y⟩] h (ix2 e 0) = x (ix2 e 0) :=
  concatenate_pair_apply_left 1 x y h (ix2 e 0) rfl (ix2 e 0) (fun b => match b with
    | ⟨0, _⟩ => rfl
    | ⟨1, _⟩ => rfl)

theorem concatCols_apply_one {n : Nat} (x y : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x⟩, ⟨⟨2, ![n, 1]⟩, y⟩] h (ix2 e 1) = y (ix2 e 0) :=
  concatenate_pair_apply_right 1 x y h (ix2 e 1) rfl rfl (ix2 e 0) (fun b hb => match b, hb with
    | ⟨0, _⟩, _ => rfl
    | ⟨1, _⟩, hb => absurd rfl hb) (by show 0 + 1 = 1; rfl)

end Layout

theorem wrapIndex_apply {s : Shape} (x z n : IVec s 32) (i : s.Idx) (hz : z i = 0#32) (h0 : 0 ≤ (x i).toInt) :
    select (cmpi .slt x z) (addi x n) x i = x i := by
  show Scalar.select (IntOp.cmpi .slt (x i) (z i)) (IntOp.addi (x i) (n i)) (x i) = x i
  have hlt : (x i).slt (z i) = false := by
    rw [hz, BitVec.slt]
    simp only [BitVec.toInt_zero, decide_eq_false_iff_not, not_lt]
    exact h0
  unfold Scalar.select IntOp.cmpi
  simp only [hlt]
  rfl

theorem wrapCol_apply {n : Nat} (x z k : IVec ⟨1, ![n]⟩ 32) (h : (⟨1, ![n]⟩ : Shape).BroadcastsInDim ⟨2, ![n, 1]⟩ (![0] : Fin 1 → Fin 2))
    (e : Fin n) (v : BitVec 32) (raw : x (ix1 e) = v) (hz : z (ix1 e) = 0#32) (h0 : 0 ≤ v.toInt) :
    broadcastInDim ⟨2, ![n, 1]⟩ ![0] h (select (cmpi .slt x z) (addi x k) x) (ix2 e 0) = v :=
  (castCol_apply _ h e).trans ((wrapIndex_apply x z k (ix1 e) hz (raw ▸ h0)).trans raw)

theorem encb_value (j : Fin 128) :
    StableHlo.after (hostOps0_2 (F := Ideal)) W (Proc.devRef .tc main_v21) (ix2 0 j)
      = W (Proc.devRef .tc main_arg4) (ix1 j) := by
  after_results
  exact shapeCast_a_1a_apply _ shapeCasts_S128_S1x128 0 j

theorem zero_value (j : Fin 128) :
    StableHlo.after (hostOps1 (F := Ideal)) W (Proc.devRef .tc main_v23) (ix1 j) = (0 : EReal) := by
  after_results
  exact (splat_apply _ bcast_S_S128 (ix1 j)).trans Ideal.ofBits_zero_f32

theorem convW0_value (k j : Fin 128) :
    StableHlo.after (hostOps1 (F := Ideal)) W (Proc.devRef .tc main_v25) (ix2 k j)
      = W (Proc.devRef .tc main_arg5) (ix3 0 k j) := by
  after_results
  exact (shapeCast_1ab_ab_apply _ shapeCasts_S1x128x128_S128x128 k j).trans
    (sliceMat_apply (0 : Fin 3) _ slices_S3x128x128_S1x128x128_0_0_0 k j)

theorem convZ0_value (j : Fin 128) :
    StableHlo.after (hostOps1 (F := Ideal)) W (Proc.devRef .tc main_v26) (ix2 0 j) = (0 : EReal) := by
  after_results
  exact (shapeCast_a_1a_apply _ shapeCasts_S128_S1x128 0 j).trans
    ((splat_apply _ bcast_S_S128 (ix1 j)).trans Ideal.ofBits_zero_f32)

theorem convb0_value (j : Fin 128) :
    StableHlo.after (hostOps2 (F := Ideal)) W (Proc.devRef .tc main_v30) (ix2 0 j)
      = W (Proc.devRef .tc main_arg6) (ix2 0 j) := by
  after_results
  exact (shapeCast_a_1a_apply _ shapeCasts_S128_S1x128 0 j).trans ((shapeCast_1a_a_apply _ shapeCasts_S1x128_S128 j).trans
    (slice2_axis0_apply 0 _ slices_S3x128_S1x128_0_0 0 j 0 rfl))

theorem convW1_value (k j : Fin 128) :
    StableHlo.after (hostOps3 (F := Ideal)) W (Proc.devRef .tc main_v33) (ix2 k j)
      = W (Proc.devRef .tc main_arg5) (ix3 1 k j) := by
  after_results
  exact (shapeCast_1ab_ab_apply _ shapeCasts_S1x128x128_S128x128 k j).trans
    (sliceMat_apply (1 : Fin 3) _ slices_S3x128x128_S1x128x128_1_0_0 k j)

theorem convZ1_value (j : Fin 128) :
    StableHlo.after (hostOps3 (F := Ideal)) W (Proc.devRef .tc main_v34) (ix2 0 j)
      = W (Proc.devRef .tc main_v23) (ix1 j) := by
  after_results
  exact shapeCast_a_1a_apply _ shapeCasts_S128_S1x128 0 j

theorem convb1_value (j : Fin 128) :
    StableHlo.after (hostOps4 (F := Ideal)) W (Proc.devRef .tc main_v38) (ix2 0 j)
      = W (Proc.devRef .tc main_arg6) (ix2 1 j) := by
  after_results
  exact (shapeCast_a_1a_apply _ shapeCasts_S128_S1x128 0 j).trans ((shapeCast_1a_a_apply _ shapeCasts_S1x128_S128 j).trans
    (slice2_axis0_apply 1 _ slices_S3x128_S1x128_1_0 0 j 1 rfl))

theorem convW2_value (k j : Fin 128) :
    StableHlo.after (hostOps5 (F := Ideal)) W (Proc.devRef .tc main_v41) (ix2 k j)
      = W (Proc.devRef .tc main_arg5) (ix3 2 k j) := by
  after_results
  exact (shapeCast_1ab_ab_apply _ shapeCasts_S1x128x128_S128x128 k j).trans
    (sliceMat_apply (2 : Fin 3) _ slices_S3x128x128_S1x128x128_2_0_0 k j)

theorem convZ2_value (j : Fin 128) :
    StableHlo.after (hostOps5 (F := Ideal)) W (Proc.devRef .tc main_v42) (ix2 0 j)
      = W (Proc.devRef .tc main_v23) (ix1 j) := by
  after_results
  exact shapeCast_a_1a_apply _ shapeCasts_S128_S1x128 0 j

theorem convb2_value (j : Fin 128) :
    StableHlo.after (hostOps6 (F := Ideal)) W (Proc.devRef .tc main_v46) (ix2 0 j)
      = W (Proc.devRef .tc main_arg6) (ix2 2 j) := by
  after_results
  exact (shapeCast_a_1a_apply _ shapeCasts_S128_S1x128 0 j).trans ((shapeCast_1a_a_apply _ shapeCasts_S1x128_S128 j).trans
    (slice2_axis0_apply 2 _ slices_S3x128_S1x128_2_0 0 j 2 rfl))

theorem decb_value (j : Fin 64) :
    StableHlo.after (hostOps7 (F := Ideal)) W (Proc.devRef .tc main_v48) (ix2 0 j)
      = W (Proc.devRef .tc main_arg8) (ix1 j) := by
  after_results
  exact shapeCast_a_1a_apply _ shapeCasts_S64_S1x64 0 j

theorem out_value (p : Fin 10000) (q : Fin 64) :
    StableHlo.after (hostOps8 (F := Ideal)) W (Proc.devRef .tc main_v50) (ix2 p q)
      = W (Proc.devRef .tc main_v49) (ix2 ⟨p.val, Nat.lt_of_lt_of_le p.isLt (by decide)⟩ q) := by
  after_results
  exact slice2_axis0_apply 0 _ slices_S10240x64_S10000x64_0_0 p q _ (Nat.zero_add _).symm

theorem pad_value (hc : W (Proc.devRef .tc main_c_3) = fun _ => 0#32) (i : Fin 10240) (k : Fin 128) :
    StableHlo.after (hostOps0_1 (F := Ideal)) W (Proc.devRef .tc main_v20) (ix2 i k)
      = Cert.Gcn.pad (Cert.Gcn.mat2 (W (Proc.devRef .tc main_arg0))) i k := by
  after_results
  show pad S10240x128 ![0, 0] ![240, 0] ![0, 0] (W (Proc.devRef .tc main_arg0) : S10000x128.Idx → EReal)
    (sitofp .f32 (W (Proc.devRef .tc main_c_3) : IVec S_ 32) : FVec Ideal S_ .f32)
    pads_S10000x128_S10240x128_02400_000 h_S_ (ix2 i k) = _
  rw [hc]
  unfold Cert.Gcn.pad
  by_cases h : i.val < Cert.Gcn.N
  · rw [dif_pos h]
    exact pad_apply_of_inside _ _ _ _ _ pads_S10000x128_S10240x128_02400_000 h_S_ (ix2 i k) (ix2 ⟨i.val, h⟩ k)
      (fun a => match a with
        | ⟨0, _⟩ => by show i.val = 0 + i.val * (0 + 1); omega
        | ⟨1, _⟩ => by show k.val = 0 + k.val * (0 + 1); omega)
  · rw [dif_neg h]
    have h' : ¬ i.val < 10000 := h
    refine (pad_apply_of_not_inside _ _ _ _ _ pads_S10000x128_S10240x128_02400_000 h_S_ (ix2 i k) (0 : Fin 2) ?_).trans ?_
    · show ¬ (0 ≤ i.val ∧ (i.val - 0) % (0 + 1) = 0 ∧ (i.val - 0) / (0 + 1) < 10000)
      omega
    · exact sitofp_zero (φ := .f32)

theorem after_split (n : Nat) (ops : List (HloOp τ sig (Elt Ideal))) (V : Valuation τ sig (Elt Ideal)) :
    StableHlo.after ops V = StableHlo.after (ops.drop n) (StableHlo.after (ops.take n) V) := by
  rw [← StableHlo.after_append, List.take_append_drop]

theorem pre_w :
    StableHlo.after (List.take 22 (hostOps0 (F := Ideal))) W (Proc.devRef .tc main_arg2) = W (Proc.devRef .tc main_arg2) := by
  simp only [hostOps0, List.take_succ_cons, List.take_zero]
  after_results

theorem pre_zero (i : S10240x10240.Idx) :
    StableHlo.after (List.take 22 (hostOps0 (F := Ideal))) W (Proc.devRef .tc main_v4) i = (0 : EReal) := by
  simp only [hostOps0, List.take_succ_cons, List.take_zero]
  after_results
  exact (splat_apply _ bcast_S_S10240x10240 i).trans Ideal.ofBits_zero_f32

theorem pre_dst (e : Fin 640000) (h0 : 0 ≤ (W (Proc.devRef .tc main_arg1) (ix2 (1 : Fin 2) e)).toInt) :
    StableHlo.after (List.take 22 (hostOps0 (F := Ideal))) W (Proc.devRef .tc main_v15) (ix2 e 0)
      = W (Proc.devRef .tc main_arg1) (ix2 (1 : Fin 2) e) := by
  simp only [hostOps0, List.take_succ_cons, List.take_zero]
  after_results
  exact wrapCol_apply _ _ _ bcast_S640000_S640000x1_0 e _ ((shapeCast_1a_a_apply _ shapeCasts_S1x640000_S640000 e).trans
    (slice2_axis0_apply 1 _ slices_S2x640000_S1x640000_1_0 0 e 1 rfl)) (splat_apply _ bcast_S_S640000 (ix1 e)) h0

theorem pre_src (e : Fin 640000) (h0 : 0 ≤ (W (Proc.devRef .tc main_arg1) (ix2 (0 : Fin 2) e)).toInt) :
    StableHlo.after (List.take 22 (hostOps0 (F := Ideal))) W (Proc.devRef .tc main_v16) (ix2 e 0)
      = W (Proc.devRef .tc main_arg1) (ix2 (0 : Fin 2) e) := by
  simp only [hostOps0, List.take_succ_cons, List.take_zero]
  after_results
  exact wrapCol_apply _ _ _ bcast_S640000_S640000x1_0 e _ ((shapeCast_1a_a_apply _ shapeCasts_S1x640000_S640000 e).trans
    (slice2_axis0_apply 0 _ slices_S2x640000_S1x640000_0_0 0 e 0 rfl)) (splat_apply _ bcast_S_S640000 (ix1 e)) h0

theorem truncf_scatterAdd_apply {s si u : Shape} {w : Nat} (d : ScatterDims s si u) (x : FVec Ideal s .f32)
    (idx : IVec si w) (upd : FVec Ideal u .f32) (h : FTy.bits .bf16 < FTy.bits .f32) (i : s.Idx) :
    truncf .bf16 (Host.scatterAdd d x idx upd) h i = Ideal.hostScatterAdd d x idx upd i := rfl

theorem scatter_rec_eq :
    scatter_S10240x10240_S640000x2_S640000_n_01_01_1
      = Cert.LibPairScatter.pairScatterDims 10240 10240 640000 Facts₀.scatter_S10240x10240_S640000x2_S640000_n_01_01_1_wf := rfl

theorem adj_value (s d : Fin Cert.Gcn.E → Fin Cert.Gcn.N)
    (hs : ∀ e : Fin 640000, (W (Proc.devRef .tc main_arg1) (ix2 (0 : Fin 2) e)).toInt = ((s e).val : ℤ))
    (hd : ∀ e : Fin 640000, (W (Proc.devRef .tc main_arg1) (ix2 (1 : Fin 2) e)).toInt = ((d e).val : ℤ))
    (i j : Fin 10240) :
    StableHlo.after (hostOps0 (F := Ideal)) W (Proc.devRef .tc main_v19) (ix2 i j)
      = Cert.Gcn.adj s d (Cert.Gcn.vec1 (W (Proc.devRef .tc main_arg2))) i j := by
  rw [after_split 22]
  have hw := pre_w W
  have hz := pre_zero W
  have hD : ∀ e : Fin 640000, _ := fun e => pre_dst W e (by rw [hd e]; exact Int.natCast_nonneg _)
  have hS : ∀ e : Fin 640000, _ := fun e => pre_src W e (by rw [hs e]; exact Int.natCast_nonneg _)
  generalize StableHlo.after (List.take 22 (hostOps0 (F := Ideal))) W = V at hw hz hD hS ⊢
  simp only [hostOps0, List.drop_succ_cons, List.drop_zero]
  after_results
  refine (truncf_scatterAdd_apply _ _ _ _ bitsLt_bf16_f32 (ix2 i j)).trans ?_
  rw [scatter_rec_eq]
  refine (Cert.LibPairScatter.scatterAdd_pairs_apply _ _ _ _ i j).trans ?_
  rw [hz, zero_add, hw]
  unfold Cert.Gcn.adj
  refine Finset.sum_congr rfl fun e _ => ?_
  rw [concatCols_apply_zero, concatCols_apply_one, hD, hS, hd e, hs e]
  simp only [Nat.cast_inj]

end Cert.KernelIdeal.HostVal

end
-- ==== Proof.KI.ValLin0.lean ====
import proofs.«405037_j79285096284452_1_alg».proof.Proof.KI.Lin0
import proofs.«405037_j79285096284452_1_alg».proof.Proof.Spec
import Idealize.ShloMosaic.Lib.StackMember
import Idealize.ShloMosaic.Lib.ValueLayout
import proofs.«405037_j79285096284452_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.ValueIdx

theorem k0_pay1_apply (x0 : Vec Ideal S1280x128 .f32) (x1 : Vec Ideal S128x128 .f32) (x2 : Vec Ideal S1x128 .f32)
    (p : Fin 1280) (q : Fin 128) :
    k0_pay1 (F := Ideal) x0 x1 x2 (ix2 p q)
      = Ideal.tanh ((∑ k : Fin 128, x0 (ix2 p k) * x1 (ix2 k q)) + x2 (ix2 (0 : Fin 1) q)) := by
  unfold k0_pay1
  simp only [shapeCast_self, matmul_zero_eq_dotGeneral]
  exact congrArg Ideal.tanh (congrArg₂ (· + ·) (StackMember.dotGeneral_plain_apply none _ _ p q) (broadcastTo_1b_ab_apply x2 _ p q))

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

def G0 (c : Dev nD) : S10240x128.Idx → EReal := fun i =>
  Cert.Gcn.tanhM (Cert.Gcn.lin (Cert.Gcn.mat2 (V c main_v20)) (Cert.Gcn.mat2 (V c main_arg3)) (Cert.Gcn.row2 (V c main_v21) 0)) (i 0) (i 1)

theorem flushed0_eq (c : Dev nD) (t : Fin cfg0.N) :
    (dat0 V c).flushed 3 t = ((cfg0.win 3).blk t).view.read (Elt Ideal) (G0 V c) := by
  obtain ⟨a0, a1, b0, b1, c0, c1, d0, d1⟩ := idx_facts0 t
  show (cfg0.win 3).cut (grid0.coords t) ((dat0 V c).after 3 t) = _
  rw [after0_3, out0_3_eq]
  refine funext fun (j : S1280x128.Idx) => ?_
  obtain ⟨p, q, rfl⟩ : ∃ (p : Fin 1280) (q : Fin 128), j = ix2 p q := ⟨j 0, j 1, eq_ix2 j⟩
  refine (k0_pay1_apply _ _ _ p q).trans <| congrArg Ideal.tanh <| congrArg₂ (· + ·) (Finset.sum_congr rfl fun k _ => congrArg₂ (· * ·)
    (congrArg (V c main_v20) (Shape.idx_ext₂ ?_ ?_)) (congrArg (V c main_arg3) (Shape.idx_ext₂ ?_ ?_)))
    (congrArg (V c main_v21) (Shape.idx_ext₂ ?_ ?_))
  · show win0_0.index t 0 * 1280 + 1 * p.val = win0_3.index t 0 * 1280 + 1 * p.val; rw [a0, d0]
  · show win0_0.index t 1 * 128 + 1 * k.val = k.val; omega
  · show win0_1.index t 0 * 128 + 1 * k.val = k.val; omega
  · show win0_1.index t 1 * 128 + 1 * q.val = win0_3.index t 1 * 128 + 1 * q.val; rw [b1, d1]
  · show win0_2.index t 0 * 1 + 1 * 0 = 0; omega
  · show win0_2.index t 1 * 128 + 1 * q.val = win0_3.index t 1 * 128 + 1 * q.val; rw [c1, d1]

theorem cover0_arr (i : S10240x128.Idx) :
    ∃ t : Fin cfg0.N, (cfg0.win 3).flush t = true ∧ i ∈ ((cfg0.win 3).blk t).view.set := by
  have hi0 : (i 0).val < 10240 := (i 0).isLt
  have hi1 : (i 1).val < 128 := (i 1).isLt
  let t : Fin cfg0.N := ⟨(i 0).val / 1280, by rw [show cfg0.N = 8 from N_0]; omega⟩
  obtain ⟨-, -, -, -, -, -, e0, e1⟩ := idx_facts0 t
  have ht : t.val = (i 0).val / 1280 := rfl
  refine ⟨t, flush0_3 t, ?_⟩
  show i ∈ ((View.whole main_v22).slice (win0_3.rect t)).set
  rw [View.set_slice_whole, Rect.mem_set_unit]
  intro a
  match a with
  | ⟨0, _⟩ => show win0_3.index t (0 : Fin 2) * 1280 ≤ (i 0).val ∧ (i 0).val < win0_3.index t (0 : Fin 2) * 1280 + 1280; omega
  | ⟨1, _⟩ => show win0_3.index t (1 : Fin 2) * 128 ≤ (i 1).val ∧ (i 1).val < win0_3.index t (1 : Fin 2) * 128 + 128; omega

theorem lin0_value (c : Dev nD) (i : Fin 10240) (j : Fin 128) :
    (dat0 (F := Ideal) V c).arrAt 3 cfg0.N (ValueIdx.ix2 i j)
      = Cert.Gcn.tanhM (Cert.Gcn.lin (Cert.Gcn.mat2 (V c main_v20)) (Cert.Gcn.mat2 (V c main_arg3)) (Cert.Gcn.row2 (V c main_v21) 0)) i j :=
  congrFun ((dat0 V c).arrAt_eq_of_cover 3 (G0 V c) (fun t _ => flushed0_eq V c t) cover0_arr) (ix2 i j)

end Cert.KernelIdeal.Hand

end
-- ==== Proof.KI.ValLin1.lean ====
import proofs.«405037_j79285096284452_1_alg».proof.Proof.KI.Lin1
import proofs.«405037_j79285096284452_1_alg».proof.Proof.Spec
import Idealize.ShloMosaic.Lib.StackMember
import Idealize.ShloMosaic.Lib.ValueLayout
import proofs.«405037_j79285096284452_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.ValueIdx

local notation "Wₛ" => S128x128
local notation "Bₛ" => S1x128
local notation "Sₒ" => S1280x128
local notation "Aₒ" => S10240x128
local notation "nₒ" => 128

theorem k1_pay1_apply (x0 : Vec Ideal S1280x128 .f32) (x1 : Vec Ideal Wₛ .f32) (x2 : Vec Ideal Bₛ .f32)
    (p : Fin 1280) (q : Fin nₒ) :
    k1_pay1 (F := Ideal) x0 x1 x2 (ix2 p q)
      = (∑ k : Fin 128, x0 (ix2 p k) * x1 (ix2 k q)) + x2 (ix2 (0 : Fin 1) q) := by
  unfold k1_pay1
  simp only [shapeCast_self, matmul_zero_eq_dotGeneral]
  exact congrArg₂ (· + ·) (StackMember.dotGeneral_plain_apply none _ _ p q) (broadcastTo_1b_ab_apply x2 _ p q)

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

def G1 (c : Dev nD) : Shape.Idx Aₒ → EReal := fun i =>
  Cert.Gcn.lin (Cert.Gcn.mat2 (V c main_v22)) (Cert.Gcn.mat2 (V c main_v25)) (Cert.Gcn.row2 (V c main_v26) 0) (i 0) (i 1)

theorem flushed1_eq (c : Dev nD) (t : Fin cfg1.N) :
    (dat1 V c).flushed 3 t = ((cfg1.win 3).blk t).view.read (Elt Ideal) (G1 V c) := by
  obtain ⟨a0, a1, b0, b1, c0, c1, d0, d1⟩ := idx_facts1 t
  show (cfg1.win 3).cut (grid1.coords t) ((dat1 V c).after 3 t) = _
  rw [after1_3, out1_3_eq]
  refine funext fun (j : Shape.Idx Sₒ) => ?_
  obtain ⟨p, q, rfl⟩ : ∃ (p : Fin 1280) (q : Fin nₒ), j = ix2 p q := ⟨j 0, j 1, eq_ix2 j⟩
  refine (k1_pay1_apply _ _ _ p q).trans <| congrArg₂ (· + ·) (Finset.sum_congr rfl fun k _ => congrArg₂ (· * ·)
    (congrArg (V c main_v22) (Shape.idx_ext₂ ?_ ?_)) (congrArg (V c main_v25) (Shape.idx_ext₂ ?_ ?_)))
    (congrArg (V c main_v26) (Shape.idx_ext₂ ?_ ?_))
  · show win1_0.index t 0 * 1280 + 1 * p.val = win1_3.index t 0 * 1280 + 1 * p.val; rw [a0, d0]
  · show win1_0.index t 1 * 128 + 1 * k.val = k.val; omega
  · show win1_1.index t 0 * 128 + 1 * k.val = k.val; omega
  · show win1_1.index t 1 * nₒ + 1 * q.val = win1_3.index t 1 * nₒ + 1 * q.val; rw [b1, d1]
  · show win1_2.index t 0 * 1 + 1 * 0 = 0; omega
  · show win1_2.index t 1 * nₒ + 1 * q.val = win1_3.index t 1 * nₒ + 1 * q.val; rw [c1, d1]

theorem cover1_arr (i : Shape.Idx Aₒ) :
    ∃ t : Fin cfg1.N, (cfg1.win 3).flush t = true ∧ i ∈ ((cfg1.win 3).blk t).view.set := by
  have hi0 : (i 0).val < 10240 := (i 0).isLt
  have hi1 : (i 1).val < nₒ := (i 1).isLt
  let t : Fin cfg1.N := ⟨(i 0).val / 1280, by rw [show cfg1.N = 8 from N_1]; omega⟩
  obtain ⟨-, -, -, -, -, -, e0, e1⟩ := idx_facts1 t
  have ht : t.val = (i 0).val / 1280 := rfl
  refine ⟨t, flush1_3 t, ?_⟩
  show i ∈ ((View.whole main_v27).slice (win1_3.rect t)).set
  rw [View.set_slice_whole, Rect.mem_set_unit]
  intro a
  match a with
  | ⟨0, _⟩ => show win1_3.index t (0 : Fin 2) * 1280 ≤ (i 0).val ∧ (i 0).val < win1_3.index t (0 : Fin 2) * 1280 + 1280; omega
  | ⟨1, _⟩ => show win1_3.index t (1 : Fin 2) * nₒ ≤ (i 1).val ∧ (i 1).val < win1_3.index t (1 : Fin 2) * nₒ + nₒ; omega

theorem lin1_value (c : Dev nD) (i : Fin 10240) (j : Fin nₒ) :
    (dat1 (F := Ideal) V c).arrAt 3 cfg1.N (ValueIdx.ix2 i j)
      = Cert.Gcn.lin (Cert.Gcn.mat2 (V c main_v22)) (Cert.Gcn.mat2 (V c main_v25)) (Cert.Gcn.row2 (V c main_v26) 0) i j :=
  congrFun ((dat1 V c).arrAt_eq_of_cover 3 (G1 V c) (fun t _ => flushed1_eq V c t) cover1_arr) (ix2 i j)

end Cert.KernelIdeal.Hand

end
-- ==== Proof.KI.ValLin3.lean ====
import proofs.«405037_j79285096284452_1_alg».proof.Proof.KI.Lin3
import proofs.«405037_j79285096284452_1_alg».proof.Proof.Spec
import Idealize.ShloMosaic.Lib.StackMember
import Idealize.ShloMosaic.Lib.ValueLayout
import proofs.«405037_j79285096284452_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.ValueIdx

local notation "Wₛ" => S128x128
local notation "Bₛ" => S1x128
local notation "Sₒ" => S1280x128
local notation "Aₒ" => S10240x128
local notation "nₒ" => 128

theorem k3_pay1_apply (x0 : Vec Ideal S1280x128 .f32) (x1 : Vec Ideal Wₛ .f32) (x2 : Vec Ideal Bₛ .f32)
    (p : Fin 1280) (q : Fin nₒ) :
    k3_pay1 (F := Ideal) x0 x1 x2 (ix2 p q)
      = (∑ k : Fin 128, x0 (ix2 p k) * x1 (ix2 k q)) + x2 (ix2 (0 : Fin 1) q) := by
  unfold k3_pay1
  simp only [shapeCast_self, matmul_zero_eq_dotGeneral]
  exact congrArg₂ (· + ·) (StackMember.dotGeneral_plain_apply none _ _ p q) (broadcastTo_1b_ab_apply x2 _ p q)

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

def G3 (c : Dev nD) : Shape.Idx Aₒ → EReal := fun i =>
  Cert.Gcn.lin (Cert.Gcn.mat2 (V c main_v31)) (Cert.Gcn.mat2 (V c main_v33)) (Cert.Gcn.row2 (V c main_v34) 0) (i 0) (i 1)

theorem flushed3_eq (c : Dev nD) (t : Fin cfg3.N) :
    (dat3 V c).flushed 3 t = ((cfg3.win 3).blk t).view.read (Elt Ideal) (G3 V c) := by
  obtain ⟨a0, a1, b0, b1, c0, c1, d0, d1⟩ := idx_facts3 t
  show (cfg3.win 3).cut (grid3.coords t) ((dat3 V c).after 3 t) = _
  rw [after3_3, out3_3_eq]
  refine funext fun (j : Shape.Idx Sₒ) => ?_
  obtain ⟨p, q, rfl⟩ : ∃ (p : Fin 1280) (q : Fin nₒ), j = ix2 p q := ⟨j 0, j 1, eq_ix2 j⟩
  refine (k3_pay1_apply _ _ _ p q).trans <| congrArg₂ (· + ·) (Finset.sum_congr rfl fun k _ => congrArg₂ (· * ·)
    (congrArg (V c main_v31) (Shape.idx_ext₂ ?_ ?_)) (congrArg (V c main_v33) (Shape.idx_ext₂ ?_ ?_)))
    (congrArg (V c main_v34) (Shape.idx_ext₂ ?_ ?_))
  · show win3_0.index t 0 * 1280 + 1 * p.val = win3_3.index t 0 * 1280 + 1 * p.val; rw [a0, d0]
  · show win3_0.index t 1 * 128 + 1 * k.val = k.val; omega
  · show win3_1.index t 0 * 128 + 1 * k.val = k.val; omega
  · show win3_1.index t 1 * nₒ + 1 * q.val = win3_3.index t 1 * nₒ + 1 * q.val; rw [b1, d1]
  · show win3_2.index t 0 * 1 + 1 * 0 = 0; omega
  · show win3_2.index t 1 * nₒ + 1 * q.val = win3_3.index t 1 * nₒ + 1 * q.val; rw [c1, d1]

theorem cover3_arr (i : Shape.Idx Aₒ) :
    ∃ t : Fin cfg3.N, (cfg3.win 3).flush t = true ∧ i ∈ ((cfg3.win 3).blk t).view.set := by
  have hi0 : (i 0).val < 10240 := (i 0).isLt
  have hi1 : (i 1).val < nₒ := (i 1).isLt
  let t : Fin cfg3.N := ⟨(i 0).val / 1280, by rw [show cfg3.N = 8 from N_3]; omega⟩
  obtain ⟨-, -, -, -, -, -, e0, e1⟩ := idx_facts3 t
  have ht : t.val = (i 0).val / 1280 := rfl
  refine ⟨t, flush3_3 t, ?_⟩
  show i ∈ ((View.whole main_v35).slice (win3_3.rect t)).set
  rw [View.set_slice_whole, Rect.mem_set_unit]
  intro a
  match a with
  | ⟨0, _⟩ => show win3_3.index t (0 : Fin 2) * 1280 ≤ (i 0).val ∧ (i 0).val < win3_3.index t (0 : Fin 2) * 1280 + 1280; omega
  | ⟨1, _⟩ => show win3_3.index t (1 : Fin 2) * nₒ ≤ (i 1).val ∧ (i 1).val < win3_3.index t (1 : Fin 2) * nₒ + nₒ; omega

theorem lin3_value (c : Dev nD) (i : Fin 10240) (j : Fin nₒ) :
    (dat3 (F := Ideal) V c).arrAt 3 cfg3.N (ValueIdx.ix2 i j)
      = Cert.Gcn.lin (Cert.Gcn.mat2 (V c main_v31)) (Cert.Gcn.mat2 (V c main_v33)) (Cert.Gcn.row2 (V c main_v34) 0) i j :=
  congrFun ((dat3 V c).arrAt_eq_of_cover 3 (G3 V c) (fun t _ => flushed3_eq V c t) cover3_arr) (ix2 i j)

end Cert.KernelIdeal.Hand

end
-- ==== Proof.KI.ValLin5.lean ====
import proofs.«405037_j79285096284452_1_alg».proof.Proof.KI.Lin5
import proofs.«405037_j79285096284452_1_alg».proof.Proof.Spec
import Idealize.ShloMosaic.Lib.StackMember
import Idealize.ShloMosaic.Lib.ValueLayout
import proofs.«405037_j79285096284452_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.ValueIdx

local notation "Wₛ" => S128x128
local notation "Bₛ" => S1x128
local notation "Sₒ" => S1280x128
local notation "Aₒ" => S10240x128
local notation "nₒ" => 128

theorem k5_pay1_apply (x0 : Vec Ideal S1280x128 .f32) (x1 : Vec Ideal Wₛ .f32) (x2 : Vec Ideal Bₛ .f32)
    (p : Fin 1280) (q : Fin nₒ) :
    k5_pay1 (F := Ideal) x0 x1 x2 (ix2 p q)
      = (∑ k : Fin 128, x0 (ix2 p k) * x1 (ix2 k q)) + x2 (ix2 (0 : Fin 1) q) := by
  unfold k5_pay1
  simp only [shapeCast_self, matmul_zero_eq_dotGeneral]
  exact congrArg₂ (· + ·) (StackMember.dotGeneral_plain_apply none _ _ p q) (broadcastTo_1b_ab_apply x2 _ p q)

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

def G5 (c : Dev nD) : Shape.Idx Aₒ → EReal := fun i =>
  Cert.Gcn.lin (Cert.Gcn.mat2 (V c main_v39)) (Cert.Gcn.mat2 (V c main_v41)) (Cert.Gcn.row2 (V c main_v42) 0) (i 0) (i 1)

theorem flushed5_eq (c : Dev nD) (t : Fin cfg5.N) :
    (dat5 V c).flushed 3 t = ((cfg5.win 3).blk t).view.read (Elt Ideal) (G5 V c) := by
  obtain ⟨a0, a1, b0, b1, c0, c1, d0, d1⟩ := idx_facts5 t
  show (cfg5.win 3).cut (grid5.coords t) ((dat5 V c).after 3 t) = _
  rw [after5_3, out5_3_eq]
  refine funext fun (j : Shape.Idx Sₒ) => ?_
  obtain ⟨p, q, rfl⟩ : ∃ (p : Fin 1280) (q : Fin nₒ), j = ix2 p q := ⟨j 0, j 1, eq_ix2 j⟩
  refine (k5_pay1_apply _ _ _ p q).trans <| congrArg₂ (· + ·) (Finset.sum_congr rfl fun k _ => congrArg₂ (· * ·)
    (congrArg (V c main_v39) (Shape.idx_ext₂ ?_ ?_)) (congrArg (V c main_v41) (Shape.idx_ext₂ ?_ ?_)))
    (congrArg (V c main_v42) (Shape.idx_ext₂ ?_ ?_))
  · show win5_0.index t 0 * 1280 + 1 * p.val = win5_3.index t 0 * 1280 + 1 * p.val; rw [a0, d0]
  · show win5_0.index t 1 * 128 + 1 * k.val = k.val; omega
  · show win5_1.index t 0 * 128 + 1 * k.val = k.val; omega
  · show win5_1.index t 1 * nₒ + 1 * q.val = win5_3.index t 1 * nₒ + 1 * q.val; rw [b1, d1]
  · show win5_2.index t 0 * 1 + 1 * 0 = 0; omega
  · show win5_2.index t 1 * nₒ + 1 * q.val = win5_3.index t 1 * nₒ + 1 * q.val; rw [c1, d1]

theorem cover5_arr (i : Shape.Idx Aₒ) :
    ∃ t : Fin cfg5.N, (cfg5.win 3).flush t = true ∧ i ∈ ((cfg5.win 3).blk t).view.set := by
  have hi0 : (i 0).val < 10240 := (i 0).isLt
  have hi1 : (i 1).val < nₒ := (i 1).isLt
  let t : Fin cfg5.N := ⟨(i 0).val / 1280, by rw [show cfg5.N = 8 from N_5]; omega⟩
  obtain ⟨-, -, -, -, -, -, e0, e1⟩ := idx_facts5 t
  have ht : t.val = (i 0).val / 1280 := rfl
  refine ⟨t, flush5_3 t, ?_⟩
  show i ∈ ((View.whole main_v43).slice (win5_3.rect t)).set
  rw [View.set_slice_whole, Rect.mem_set_unit]
  intro a
  match a with
  | ⟨0, _⟩ => show win5_3.index t (0 : Fin 2) * 1280 ≤ (i 0).val ∧ (i 0).val < win5_3.index t (0 : Fin 2) * 1280 + 1280; omega
  | ⟨1, _⟩ => show win5_3.index t (1 : Fin 2) * nₒ ≤ (i 1).val ∧ (i 1).val < win5_3.index t (1 : Fin 2) * nₒ + nₒ; omega

theorem lin5_value (c : Dev nD) (i : Fin 10240) (j : Fin nₒ) :
    (dat5 (F := Ideal) V c).arrAt 3 cfg5.N (ValueIdx.ix2 i j)
      = Cert.Gcn.lin (Cert.Gcn.mat2 (V c main_v39)) (Cert.Gcn.mat2 (V c main_v41)) (Cert.Gcn.row2 (V c main_v42) 0) i j :=
  congrFun ((dat5 V c).arrAt_eq_of_cover 3 (G5 V c) (fun t _ => flushed5_eq V c t) cover5_arr) (ix2 i j)

end Cert.KernelIdeal.Hand

end
-- ==== Proof.KI.ValLin7.lean ====
import proofs.«405037_j79285096284452_1_alg».proof.Proof.KI.Lin7
import proofs.«405037_j79285096284452_1_alg».proof.Proof.Spec
import Idealize.ShloMosaic.Lib.StackMember
import Idealize.ShloMosaic.Lib.ValueLayout
import proofs.«405037_j79285096284452_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.ValueIdx

local notation "Wₛ" => S128x64
local notation "Bₛ" => S1x64
local notation "Sₒ" => S1280x64
local notation "Aₒ" => S10240x64
local notation "nₒ" => 64

theorem k7_pay1_apply (x0 : Vec Ideal S1280x128 .f32) (x1 : Vec Ideal Wₛ .f32) (x2 : Vec Ideal Bₛ .f32)
    (p : Fin 1280) (q : Fin nₒ) :
    k7_pay1 (F := Ideal) x0 x1 x2 (ix2 p q)
      = (∑ k : Fin 128, x0 (ix2 p k) * x1 (ix2 k q)) + x2 (ix2 (0 : Fin 1) q) := by
  unfold k7_pay1
  simp only [shapeCast_self, matmul_zero_eq_dotGeneral]
  exact congrArg₂ (· + ·) (StackMember.dotGeneral_plain_apply none _ _ p q) (broadcastTo_1b_ab_apply x2 _ p q)

variable (V : (c : Dev nD) → (b : Ref sig .tc) → Buf (Elt Ideal) ((c : Thread nD τ).loc b))

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

def G7 (c : Dev nD) : Shape.Idx Aₒ → EReal := fun i =>
  Cert.Gcn.lin (Cert.Gcn.mat2 (V c main_v47)) (Cert.Gcn.mat2 (V c main_arg7)) (Cert.Gcn.row2 (V c main_v48) 0) (i 0) (i 1)

theorem flushed7_eq (c : Dev nD) (t : Fin cfg7.N) :
    (dat7 V c).flushed 3 t = ((cfg7.win 3).blk t).view.read (Elt Ideal) (G7 V c) := by
  obtain ⟨a0, a1, b0, b1, c0, c1, d0, d1⟩ := idx_facts7 t
  show (cfg7.win 3).cut (grid7.coords t) ((dat7 V c).after 3 t) = _
  rw [after7_3, out7_3_eq]
  refine funext fun (j : Shape.Idx Sₒ) => ?_
  obtain ⟨p, q, rfl⟩ : ∃ (p : Fin 1280) (q : Fin nₒ), j = ix2 p q := ⟨j 0, j 1, eq_ix2 j⟩
  refine (k7_pay1_apply _ _ _ p q).trans <| congrArg₂ (· + ·) (Finset.sum_congr rfl fun k _ => congrArg₂ (· * ·)
    (congrArg (V c main_v47) (Shape.idx_ext₂ ?_ ?_)) (congrArg (V c main_arg7) (Shape.idx_ext₂ ?_ ?_)))
    (congrArg (V c main_v48) (Shape.idx_ext₂ ?_ ?_))
  · show win7_0.index t 0 * 1280 + 1 * p.val = win7_3.index t 0 * 1280 + 1 * p.val; rw [a0, d0]
  · show win7_0.index t 1 * 128 + 1 * k.val = k.val; omega
  · show win7_1.index t 0 * 128 + 1 * k.val = k.val; omega
  · show win7_1.index t 1 * nₒ + 1 * q.val = win7_3.index t 1 * nₒ + 1 * q.val; rw [b1, d1]
  · show win7_2.index t 0 * 1 + 1 * 0 = 0; omega
  · show win7_2.index t 1 * nₒ + 1 * q.val = win7_3.index t 1 * nₒ + 1 * q.val; rw [c1, d1]

theorem cover7_arr (i : Shape.Idx Aₒ) :
    ∃ t : Fin cfg7.N, (cfg7.win 3).flush t = true ∧ i ∈ ((cfg7.win 3).blk t).view.set := by
  have hi0 : (i 0).val < 10240 := (i 0).isLt
  have hi1 : (i 1).val < nₒ := (i 1).isLt
  let t : Fin cfg7.N := ⟨(i 0).val / 1280, by rw [show cfg7.N = 8 from N_7]; omega⟩
  obtain ⟨-, -, -, -, -, -, e0, e1⟩ := idx_facts7 t
  have ht : t.val = (i 0).val / 1280 := rfl
  refine ⟨t, flush7_3 t, ?_⟩
  show i ∈ ((View.whole main_v49).slice (win7_3.rect t)).set
  rw [View.set_slice_whole, Rect.mem_set_unit]
  intro a
  match a with
  | ⟨0, _⟩ => show win7_3.index t (0 : Fin 2) * 1280 ≤ (i 0).val ∧ (i 0).val < win7_3.index t (0 : Fin 2) * 1280 + 1280; omega
  | ⟨1, _⟩ => show win7_3.index t (1 : Fin 2) * nₒ ≤ (i 1).val ∧ (i 1).val < win7_3.index t (1 : Fin 2) * nₒ + nₒ; omega

theorem lin7_value (c : Dev nD) (i : Fin 10240) (j : Fin nₒ) :
    (dat7 (F := Ideal) V c).arrAt 3 cfg7.N (ValueIdx.ix2 i j)
      = Cert.Gcn.lin (Cert.Gcn.mat2 (V c main_v47)) (Cert.Gcn.mat2 (V c main_arg7)) (Cert.Gcn.row2 (V c main_v48) 0) i j :=
  congrFun ((dat7 V c).arrAt_eq_of_cover 3 (G7 V c) (fun t _ => flushed7_eq V c t) cover7_arr) (ix2 i j)

end Cert.KernelIdeal.Hand

end
-- ==== Proof.KI.ValAgg2.lean ====
import proofs.«405037_j79285096284452_1_alg».proof.Proof.KI.Agg2
import proofs.«405037_j79285096284452_1_alg».proof.Proof.Spec
import Idealize.ShloMosaic.Lib.StackMember
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

theorem pay1_agg2_apply (p : Fin 1280) (q : Fin 128) : k2_pay1 (F := Ideal) (ix2 p q) = 0 := by
  unfold k2_pay1
  simp only [shapeCast_self]
  exact Ideal.ofBits_zero_f32

theorem pay2_agg2_apply (a : Vec Ideal S1280x128 .f32) (x : Vec Ideal S1280x2560 .bf16) (y : Vec Ideal S2560x128 .bf16)
    (p : Fin 1280) (q : Fin 128) : k2_pay2 a x y (ix2 p q) = a (ix2 p q) + ∑ k : Fin 2560, x (ix2 p k) * y (ix2 k q) := by
  unfold k2_pay2
  simp only [shapeCast_self]
  exact congrArg (a (ix2 p q) + ·) ((congrFun (matmul_zero_eq_dotGeneral _ none x y) _).trans
    (StackMember.dotGeneral_plain_apply none x y p q))

theorem pay3_agg2_apply (a : Vec Ideal S1280x128 .f32) (b : Vec Ideal S1x128 .f32) (p : Fin 1280) (q : Fin 128) :
    k2_pay3 a b (ix2 p q) = Ideal.tanh (a (ix2 p q) + b (ix2 0 q)) := by
  unfold k2_pay3
  simp only [shapeCast_self]
  exact congrArg (fun s => Ideal.tanh (a (ix2 p q) + s)) (broadcastTo_1b_ab_apply b _ p q)

variable (V : (c : Dev nD) → (b : Ref sig .tc) → Buf (Elt Ideal) ((c : Thread nD τ).loc b))

theorem idx_facts_agg2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

theorem blk_agg2_eq (c : Dev nD) (s : Fin cfg2.N) (mb : Fin 4) (p : Fin 1280) (q : Fin 128) (e : S10240x128.Idx)
    (x : Vec Ideal S1280x2560 .bf16) (y : Vec Ideal S2560x128 .bf16) (hx : x = iblk2 V c 0 s) (hy : y = iblk2 V c 1 s)
    (hm : s.val % 4 = mb.val) (h0 : (e 0).val = 1280 * (s.val / 4) + p.val) (h1 : (e 1).val = q.val) :
    ∑ k : Fin 2560, x (ix2 p k) * y (ix2 k q)
      = Cert.Gcn.blk (Cert.Gcn.mat2 (V c main_v19)) (Cert.Gcn.mat2 (V c main_v27)) mb (e 0) (e 1) := by
  subst hx hy
  obtain ⟨a0, a1, b0, b1, -⟩ := idx_facts_agg2 s
  exact Finset.sum_congr rfl fun k _ => congrArg₂ (· * ·)
    (congrArg (V c main_v19 : S10240x10240.Idx → EReal) (Shape.idx_ext₂ (by show win2_0.index s 0 * 1280 + 1 * p.val = (e 0).val; omega)
      (by show win2_0.index s 1 * 2560 + 1 * k.val = 2560 * mb.val + k.val; omega)))
    (congrArg (V c main_v27 : S10240x128.Idx → EReal) (Shape.idx_ext₂ (by show win2_1.index s 0 * 2560 + 1 * k.val = 2560 * mb.val + k.val; omega)
      (by show win2_1.index s 1 * 128 + 1 * q.val = (e 1).val; omega)))

abbrev out_agg2 (c : Dev nD) : S10240x128.Idx → EReal := fun i =>
  Cert.Gcn.tanhM (fun i j => Cert.Gcn.aggK (Cert.Gcn.mat2 (V c main_v19)) (Cert.Gcn.mat2 (V c main_v27)) i j
    + Cert.Gcn.row2 (V c main_v30) 0 j) (i 0) (i 1)

theorem cover_agg2 (i : S10240x128.Idx) : ∃ t : Fin cfg2.N, (cfg2.win 3).flush t = true ∧ i ∈ ((cfg2.win 3).blk t).view.set := by
  have h0 : (i 0).val < 10240 := (i 0).isLt
  have h1 : (i 1).val < 128 := (i 1).isLt
  let t : Fin cfg2.N := ⟨4 * ((i 0).val / 1280) + 3, by rw [show cfg2.N = 32 from N_2]; omega⟩
  have ht : t.val = 4 * ((i 0).val / 1280) + 3 := rfl
  obtain ⟨-, -, -, -, -, -, f0, f1⟩ := idx_facts_agg2 t
  refine ⟨t, (flush2_3 t).mpr (by omega), ?_⟩
  show i ∈ ((View.whole main_v31).slice (win2_3.rect t)).set
  rw [View.set_slice_whole, Rect.mem_set_unit]
  intro a
  match a with
  | ⟨0, _⟩ => show win2_3.index t (0 : Fin 2) * 1280 ≤ (i 0).val ∧ (i 0).val < win2_3.index t (0 : Fin 2) * 1280 + 1280; omega
  | ⟨1, _⟩ => show win2_3.index t (1 : Fin 2) * 128 ≤ (i 1).val ∧ (i 1).val < win2_3.index t (1 : Fin 2) * 128 + 128; omega

theorem flushed_agg2_eq (c : Dev nD) (t : Fin cfg2.N) (hf : (cfg2.win 3).flush t = true) :
    (dat2 V c).flushed 3 t = ((cfg2.win 3).blk t).view.read (Elt Ideal) (out_agg2 V c) := by
  have ht3 : t.val % 4 = 3 := (flush2_3 t).mp hf
  have l3 : t.val < cfg2.N := t.isLt
  obtain ⟨-, -, -, -, g0, g1, f0, f1⟩ := idx_facts_agg2 t
  show (cfg2.win 3).cut (grid2.coords t) ((dat2 V c).after 3 t) = _
  rw [after2_3]
  funext j
  obtain ⟨p, q, rfl⟩ : ∃ (p : Fin 1280) (q : Fin 128), j = ix2 p q := ⟨j 0, j 1, eq_ix2 j⟩
  show k2_pay3 (acc2 V c t.val) (iblk2 V c 2 t) (ix2 p q) = out_agg2 V c (((cfg2.win 3).blk t).view.emb (ix2 p q))
  have e0 : ((((cfg2.win 3).blk t).view.emb (ix2 p q)) 0).val = 1280 * (t.val / 4) + p.val := by
    show win2_3.index t 0 * 1280 + 1 * p.val = _; omega
  have e1 : ((((cfg2.win 3).blk t).view.emb (ix2 p q)) 1).val = q.val := by
    show win2_3.index t 1 * 128 + 1 * q.val = _; omega
  generalize ((cfg2.win 3).blk t).view.emb (ix2 p q) = e at e0 e1
  rw [pay3_agg2_apply, acc2_step V c t.val l3 (by omega), pay2_agg2_apply, acc2_step V c (t.val - 1) (by omega) (by omega),
    pay2_agg2_apply, acc2_step V c (t.val - 1 - 1) (by omega) (by omega), pay2_agg2_apply,
    acc2_reset V c (t.val - 1 - 1 - 1) (by omega) (by omega), pay2_agg2_apply, pay1_agg2_apply,
    blk_agg2_eq V c ⟨t.val - 1 - 1 - 1, by omega⟩ 0 p q e _ _ rfl rfl (by show (t.val - 1 - 1 - 1) % 4 = 0; omega) (by show _ = 1280 * ((t.val - 1 - 1 - 1) / 4) + p.val; omega) e1,
    blk_agg2_eq V c ⟨t.val - 1 - 1, by omega⟩ 1 p q e _ _ rfl rfl (by show (t.val - 1 - 1) % 4 = 1; omega) (by show _ = 1280 * ((t.val - 1 - 1) / 4) + p.val; omega) e1,
    blk_agg2_eq V c ⟨t.val - 1, by omega⟩ 2 p q e _ _ rfl rfl (by show (t.val - 1) % 4 = 2; omega) (by show _ = 1280 * ((t.val - 1) / 4) + p.val; omega) e1,
    blk_agg2_eq V c ⟨t.val, l3⟩ 3 p q e _ _ rfl rfl (by show t.val % 4 = 3; omega) (by show _ = 1280 * (t.val / 4) + p.val; omega) e1]
  exact congrArg (fun b => Ideal.tanh (_ + b)) (congrArg (V c main_v30) (Shape.idx_ext₂
    (by show win2_2.index t 0 * 1 + 1 * 0 = 0; omega) (by show win2_2.index t 1 * 128 + 1 * q.val = (e 1).val; omega)))

theorem agg2_value (c : Dev nD) (i : Fin 10240) (j : Fin 128) :
    ((dat2 (F := Ideal) V c).arrAt 3 cfg2.N : S10240x128.Idx → EReal) (ValueIdx.ix2 i j)
      = Cert.Gcn.tanhM (fun i j => Cert.Gcn.aggK (Cert.Gcn.mat2 (V c main_v19 : S10240x10240.Idx → EReal)) (Cert.Gcn.mat2 (V c main_v27 : S10240x128.Idx → EReal)) i j
          + Cert.Gcn.row2 (V c main_v30 : S1x128.Idx → EReal) 0 j) i j :=
  congrFun ((dat2 V c).arrAt_eq_of_cover 3 (out_agg2 V c) (flushed_agg2_eq V c) cover_agg2) (ix2 i j)

end Cert.KernelIdeal.Hand

end
-- ==== Proof.KI.ValAgg4.lean ====
import proofs.«405037_j79285096284452_1_alg».proof.Proof.KI.Agg4
import proofs.«405037_j79285096284452_1_alg».proof.Proof.Spec
import Idealize.ShloMosaic.Lib.StackMember
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

theorem pay1_agg4_apply (p : Fin 1280) (q : Fin 128) : k4_pay1 (F := Ideal) (ix2 p q) = 0 := by
  unfold k4_pay1
  simp only [shapeCast_self]
  exact Ideal.ofBits_zero_f32

theorem pay2_agg4_apply (a : Vec Ideal S1280x128 .f32) (x : Vec Ideal S1280x2560 .bf16) (y : Vec Ideal S2560x128 .bf16)
    (p : Fin 1280) (q : Fin 128) : k4_pay2 a x y (ix2 p q) = a (ix2 p q) + ∑ k : Fin 2560, x (ix2 p k) * y (ix2 k q) := by
  unfold k4_pay2
  simp only [shapeCast_self]
  exact congrArg (a (ix2 p q) + ·) ((congrFun (matmul_zero_eq_dotGeneral _ none x y) _).trans
    (StackMember.dotGeneral_plain_apply none x y p q))

theorem pay3_agg4_apply (a : Vec Ideal S1280x128 .f32) (b : Vec Ideal S1x128 .f32) (p : Fin 1280) (q : Fin 128) :
    k4_pay3 a b (ix2 p q) = Ideal.tanh (a (ix2 p q) + b (ix2 0 q)) := by
  unfold k4_pay3
  simp only [shapeCast_self]
  exact congrArg (fun s => Ideal.tanh (a (ix2 p q) + s)) (broadcastTo_1b_ab_apply b _ p q)

variable (V : (c : Dev nD) → (b : Ref sig .tc) → Buf (Elt Ideal) ((c : Thread nD τ).loc b))

theorem idx_facts_agg4 : ∀ t : Fin cfg4.N,
    win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = 0 ∧ win4_2.index t (1 : Fin 2) = 0
    ∧ win4_3.index t (0 : Fin 2) = t.val / 4 ∧ win4_3.index t (1 : Fin 2) = 0 :=
  (by decide +kernel : ∀ t : Fin grid4.N, _)

theorem blk_agg4_eq (c : Dev nD) (s : Fin cfg4.N) (mb : Fin 4) (p : Fin 1280) (q : Fin 128) (e : S10240x128.Idx)
    (x : Vec Ideal S1280x2560 .bf16) (y : Vec Ideal S2560x128 .bf16) (hx : x = iblk4 V c 0 s) (hy : y = iblk4 V c 1 s)
    (hm : s.val % 4 = mb.val) (h0 : (e 0).val = 1280 * (s.val / 4) + p.val) (h1 : (e 1).val = q.val) :
    ∑ k : Fin 2560, x (ix2 p k) * y (ix2 k q)
      = Cert.Gcn.blk (Cert.Gcn.mat2 (V c main_v19)) (Cert.Gcn.mat2 (V c main_v35)) mb (e 0) (e 1) := by
  subst hx hy
  obtain ⟨a0, a1, b0, b1, -⟩ := idx_facts_agg4 s
  exact Finset.sum_congr rfl fun k _ => congrArg₂ (· * ·)
    (congrArg (V c main_v19 : S10240x10240.Idx → EReal) (Shape.idx_ext₂ (by show win4_0.index s 0 * 1280 + 1 * p.val = (e 0).val; omega)
      (by show win4_0.index s 1 * 2560 + 1 * k.val = 2560 * mb.val + k.val; omega)))
    (congrArg (V c main_v35 : S10240x128.Idx → EReal) (Shape.idx_ext₂ (by show win4_1.index s 0 * 2560 + 1 * k.val = 2560 * mb.val + k.val; omega)
      (by show win4_1.index s 1 * 128 + 1 * q.val = (e 1).val; omega)))

abbrev out_agg4 (c : Dev nD) : S10240x128.Idx → EReal := fun i =>
  Cert.Gcn.tanhM (fun i j => Cert.Gcn.aggK (Cert.Gcn.mat2 (V c main_v19)) (Cert.Gcn.mat2 (V c main_v35)) i j
    + Cert.Gcn.row2 (V c main_v38) 0 j) (i 0) (i 1)

theorem cover_agg4 (i : S10240x128.Idx) : ∃ t : Fin cfg4.N, (cfg4.win 3).flush t = true ∧ i ∈ ((cfg4.win 3).blk t).view.set := by
  have h0 : (i 0).val < 10240 := (i 0).isLt
  have h1 : (i 1).val < 128 := (i 1).isLt
  let t : Fin cfg4.N := ⟨4 * ((i 0).val / 1280) + 3, by rw [show cfg4.N = 32 from N_4]; omega⟩
  have ht : t.val = 4 * ((i 0).val / 1280) + 3 := rfl
  obtain ⟨-, -, -, -, -, -, f0, f1⟩ := idx_facts_agg4 t
  refine ⟨t, (flush4_3 t).mpr (by omega), ?_⟩
  show i ∈ ((View.whole main_v39).slice (win4_3.rect t)).set
  rw [View.set_slice_whole, Rect.mem_set_unit]
  intro a
  match a with
  | ⟨0, _⟩ => show win4_3.index t (0 : Fin 2) * 1280 ≤ (i 0).val ∧ (i 0).val < win4_3.index t (0 : Fin 2) * 1280 + 1280; omega
  | ⟨1, _⟩ => show win4_3.index t (1 : Fin 2) * 128 ≤ (i 1).val ∧ (i 1).val < win4_3.index t (1 : Fin 2) * 128 + 128; omega

theorem flushed_agg4_eq (c : Dev nD) (t : Fin cfg4.N) (hf : (cfg4.win 3).flush t = true) :
    (dat4 V c).flushed 3 t = ((cfg4.win 3).blk t).view.read (Elt Ideal) (out_agg4 V c) := by
  have ht3 : t.val % 4 = 3 := (flush4_3 t).mp hf
  have l3 : t.val < cfg4.N := t.isLt
  obtain ⟨-, -, -, -, g0, g1, f0, f1⟩ := idx_facts_agg4 t
  show (cfg4.win 3).cut (grid4.coords t) ((dat4 V c).after 3 t) = _
  rw [after4_3]
  funext j
  obtain ⟨p, q, rfl⟩ : ∃ (p : Fin 1280) (q : Fin 128), j = ix2 p q := ⟨j 0, j 1, eq_ix2 j⟩
  show k4_pay3 (acc4 V c t.val) (iblk4 V c 2 t) (ix2 p q) = out_agg4 V c (((cfg4.win 3).blk t).view.emb (ix2 p q))
  have e0 : ((((cfg4.win 3).blk t).view.emb (ix2 p q)) 0).val = 1280 * (t.val / 4) + p.val := by
    show win4_3.index t 0 * 1280 + 1 * p.val = _; omega
  have e1 : ((((cfg4.win 3).blk t).view.emb (ix2 p q)) 1).val = q.val := by
    show win4_3.index t 1 * 128 + 1 * q.val = _; omega
  generalize ((cfg4.win 3).blk t).view.emb (ix2 p q) = e at e0 e1
  rw [pay3_agg4_apply, acc4_step V c t.val l3 (by omega), pay2_agg4_apply, acc4_step V c (t.val - 1) (by omega) (by omega),
    pay2_agg4_apply, acc4_step V c (t.val - 1 - 1) (by omega) (by omega), pay2_agg4_apply,
    acc4_reset V c (t.val - 1 - 1 - 1) (by omega) (by omega), pay2_agg4_apply, pay1_agg4_apply,
    blk_agg4_eq V c ⟨t.val - 1 - 1 - 1, by omega⟩ 0 p q e _ _ rfl rfl (by show (t.val - 1 - 1 - 1) % 4 = 0; omega) (by show _ = 1280 * ((t.val - 1 - 1 - 1) / 4) + p.val; omega) e1,
    blk_agg4_eq V c ⟨t.val - 1 - 1, by omega⟩ 1 p q e _ _ rfl rfl (by show (t.val - 1 - 1) % 4 = 1; omega) (by show _ = 1280 * ((t.val - 1 - 1) / 4) + p.val; omega) e1,
    blk_agg4_eq V c ⟨t.val - 1, by omega⟩ 2 p q e _ _ rfl rfl (by show (t.val - 1) % 4 = 2; omega) (by show _ = 1280 * ((t.val - 1) / 4) + p.val; omega) e1,
    blk_agg4_eq V c ⟨t.val, l3⟩ 3 p q e _ _ rfl rfl (by show t.val % 4 = 3; omega) (by show _ = 1280 * (t.val / 4) + p.val; omega) e1]
  exact congrArg (fun b => Ideal.tanh (_ + b)) (congrArg (V c main_v38) (Shape.idx_ext₂
    (by show win4_2.index t 0 * 1 + 1 * 0 = 0; omega) (by show win4_2.index t 1 * 128 + 1 * q.val = (e 1).val; omega)))

theorem agg4_value (c : Dev nD) (i : Fin 10240) (j : Fin 128) :
    ((dat4 (F := Ideal) V c).arrAt 3 cfg4.N : S10240x128.Idx → EReal) (ValueIdx.ix2 i j)
      = Cert.Gcn.tanhM (fun i j => Cert.Gcn.aggK (Cert.Gcn.mat2 (V c main_v19 : S10240x10240.Idx → EReal)) (Cert.Gcn.mat2 (V c main_v35 : S10240x128.Idx → EReal)) i j
          + Cert.Gcn.row2 (V c main_v38 : S1x128.Idx → EReal) 0 j) i j :=
  congrFun ((dat4 V c).arrAt_eq_of_cover 3 (out_agg4 V c) (flushed_agg4_eq V c) cover_agg4) (ix2 i j)

end Cert.KernelIdeal.Hand

end
-- ==== Proof.KI.ValAgg6.lean ====
import proofs.«405037_j79285096284452_1_alg».proof.Proof.KI.Agg6
import proofs.«405037_j79285096284452_1_alg».proof.Proof.Spec
import Idealize.ShloMosaic.Lib.StackMember
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

theorem pay1_agg6_apply (p : Fin 1280) (q : Fin 128) : k6_pay1 (F := Ideal) (ix2 p q) = 0 := by
  unfold k6_pay1
  simp only [shapeCast_self]
  exact Ideal.ofBits_zero_f32

theorem pay2_agg6_apply (a : Vec Ideal S1280x128 .f32) (x : Vec Ideal S1280x2560 .bf16) (y : Vec Ideal S2560x128 .bf16)
    (p : Fin 1280) (q : Fin 128) : k6_pay2 a x y (ix2 p q) = a (ix2 p q) + ∑ k : Fin 2560, x (ix2 p k) * y (ix2 k q) := by
  unfold k6_pay2
  simp only [shapeCast_self]
  exact congrArg (a (ix2 p q) + ·) ((congrFun (matmul_zero_eq_dotGeneral _ none x y) _).trans
    (StackMember.dotGeneral_plain_apply none x y p q))

theorem pay3_agg6_apply (a : Vec Ideal S1280x128 .f32) (b : Vec Ideal S1x128 .f32) (p : Fin 1280) (q : Fin 128) :
    k6_pay3 a b (ix2 p q) = Ideal.tanh (a (ix2 p q) + b (ix2 0 q)) := by
  unfold k6_pay3
  simp only [shapeCast_self]
  exact congrArg (fun s => Ideal.tanh (a (ix2 p q) + s)) (broadcastTo_1b_ab_apply b _ p q)

variable (V : (c : Dev nD) → (b : Ref sig .tc) → Buf (Elt Ideal) ((c : Thread nD τ).loc b))

theorem idx_facts_agg6 : ∀ t : Fin cfg6.N,
    win6_0.index t (0 : Fin 2) = t.val / 4 ∧ win6_0.index t (1 : Fin 2) = t.val % 4
    ∧ win6_1.index t (0 : Fin 2) = t.val % 4 ∧ win6_1.index t (1 : Fin 2) = 0
    ∧ win6_2.index t (0 : Fin 2) = 0 ∧ win6_2.index t (1 : Fin 2) = 0
    ∧ win6_3.index t (0 : Fin 2) = t.val / 4 ∧ win6_3.index t (1 : Fin 2) = 0 :=
  (by decide +kernel : ∀ t : Fin grid6.N, _)

theorem blk_agg6_eq (c : Dev nD) (s : Fin cfg6.N) (mb : Fin 4) (p : Fin 1280) (q : Fin 128) (e : S10240x128.Idx)
    (x : Vec Ideal S1280x2560 .bf16) (y : Vec Ideal S2560x128 .bf16) (hx : x = iblk6 V c 0 s) (hy : y = iblk6 V c 1 s)
    (hm : s.val % 4 = mb.val) (h0 : (e 0).val = 1280 * (s.val / 4) + p.val) (h1 : (e 1).val = q.val) :
    ∑ k : Fin 2560, x (ix2 p k) * y (ix2 k q)
      = Cert.Gcn.blk (Cert.Gcn.mat2 (V c main_v19)) (Cert.Gcn.mat2 (V c main_v43)) mb (e 0) (e 1) := by
  subst hx hy
  obtain ⟨a0, a1, b0, b1, -⟩ := idx_facts_agg6 s
  exact Finset.sum_congr rfl fun k _ => congrArg₂ (· * ·)
    (congrArg (V c main_v19 : S10240x10240.Idx → EReal) (Shape.idx_ext₂ (by show win6_0.index s 0 * 1280 + 1 * p.val = (e 0).val; omega)
      (by show win6_0.index s 1 * 2560 + 1 * k.val = 2560 * mb.val + k.val; omega)))
    (congrArg (V c main_v43 : S10240x128.Idx → EReal) (Shape.idx_ext₂ (by show win6_1.index s 0 * 2560 + 1 * k.val = 2560 * mb.val + k.val; omega)
      (by show win6_1.index s 1 * 128 + 1 * q.val = (e 1).val; omega)))

abbrev out_agg6 (c : Dev nD) : S10240x128.Idx → EReal := fun i =>
  Cert.Gcn.tanhM (fun i j => Cert.Gcn.aggK (Cert.Gcn.mat2 (V c main_v19)) (Cert.Gcn.mat2 (V c main_v43)) i j
    + Cert.Gcn.row2 (V c main_v46) 0 j) (i 0) (i 1)

theorem cover_agg6 (i : S10240x128.Idx) : ∃ t : Fin cfg6.N, (cfg6.win 3).flush t = true ∧ i ∈ ((cfg6.win 3).blk t).view.set := by
  have h0 : (i 0).val < 10240 := (i 0).isLt
  have h1 : (i 1).val < 128 := (i 1).isLt
  let t : Fin cfg6.N := ⟨4 * ((i 0).val / 1280) + 3, by rw [show cfg6.N = 32 from N_6]; omega⟩
  have ht : t.val = 4 * ((i 0).val / 1280) + 3 := rfl
  obtain ⟨-, -, -, -, -, -, f0, f1⟩ := idx_facts_agg6 t
  refine ⟨t, (flush6_3 t).mpr (by omega), ?_⟩
  show i ∈ ((View.whole main_v47).slice (win6_3.rect t)).set
  rw [View.set_slice_whole, Rect.mem_set_unit]
  intro a
  match a with
  | ⟨0, _⟩ => show win6_3.index t (0 : Fin 2) * 1280 ≤ (i 0).val ∧ (i 0).val < win6_3.index t (0 : Fin 2) * 1280 + 1280; omega
  | ⟨1, _⟩ => show win6_3.index t (1 : Fin 2) * 128 ≤ (i 1).val ∧ (i 1).val < win6_3.index t (1 : Fin 2) * 128 + 128; omega

theorem flushed_agg6_eq (c : Dev nD) (t : Fin cfg6.N) (hf : (cfg6.win 3).flush t = true) :
    (dat6 V c).flushed 3 t = ((cfg6.win 3).blk t).view.read (Elt Ideal) (out_agg6 V c) := by
  have ht3 : t.val % 4 = 3 := (flush6_3 t).mp hf
  have l3 : t.val < cfg6.N := t.isLt
  obtain ⟨-, -, -, -, g0, g1, f0, f1⟩ := idx_facts_agg6 t
  show (cfg6.win 3).cut (grid6.coords t) ((dat6 V c).after 3 t) = _
  rw [after6_3]
  funext j
  obtain ⟨p, q, rfl⟩ : ∃ (p : Fin 1280) (q : Fin 128), j = ix2 p q := ⟨j 0, j 1, eq_ix2 j⟩
  show k6_pay3 (acc6 V c t.val) (iblk6 V c 2 t) (ix2 p q) = out_agg6 V c (((cfg6.win 3).blk t).view.emb (ix2 p q))
  have e0 : ((((cfg6.win 3).blk t).view.emb (ix2 p q)) 0).val = 1280 * (t.val / 4) + p.val := by
    show win6_3.index t 0 * 1280 + 1 * p.val = _; omega
  have e1 : ((((cfg6.win 3).blk t).view.emb (ix2 p q)) 1).val = q.val := by
    show win6_3.index t 1 * 128 + 1 * q.val = _; omega
  generalize ((cfg6.win 3).blk t).view.emb (ix2 p q) = e at e0 e1
  rw [pay3_agg6_apply, acc6_step V c t.val l3 (by omega), pay2_agg6_apply, acc6_step V c (t.val - 1) (by omega) (by omega),
    pay2_agg6_apply, acc6_step V c (t.val - 1 - 1) (by omega) (by omega), pay2_agg6_apply,
    acc6_reset V c (t.val - 1 - 1 - 1) (by omega) (by omega), pay2_agg6_apply, pay1_agg6_apply,
    blk_agg6_eq V c ⟨t.val - 1 - 1 - 1, by omega⟩ 0 p q e _ _ rfl rfl (by show (t.val - 1 - 1 - 1) % 4 = 0; omega) (by show _ = 1280 * ((t.val - 1 - 1 - 1) / 4) + p.val; omega) e1,
    blk_agg6_eq V c ⟨t.val - 1 - 1, by omega⟩ 1 p q e _ _ rfl rfl (by show (t.val - 1 - 1) % 4 = 1; omega) (by show _ = 1280 * ((t.val - 1 - 1) / 4) + p.val; omega) e1,
    blk_agg6_eq V c ⟨t.val - 1, by omega⟩ 2 p q e _ _ rfl rfl (by show (t.val - 1) % 4 = 2; omega) (by show _ = 1280 * ((t.val - 1) / 4) + p.val; omega) e1,
    blk_agg6_eq V c ⟨t.val, l3⟩ 3 p q e _ _ rfl rfl (by show t.val % 4 = 3; omega) (by show _ = 1280 * (t.val / 4) + p.val; omega) e1]
  exact congrArg (fun b => Ideal.tanh (_ + b)) (congrArg (V c main_v46) (Shape.idx_ext₂
    (by show win6_2.index t 0 * 1 + 1 * 0 = 0; omega) (by show win6_2.index t 1 * 128 + 1 * q.val = (e 1).val; omega)))

theorem agg6_value (c : Dev nD) (i : Fin 10240) (j : Fin 128) :
    ((dat6 (F := Ideal) V c).arrAt 3 cfg6.N : S10240x128.Idx → EReal) (ValueIdx.ix2 i j)
      = Cert.Gcn.tanhM (fun i j => Cert.Gcn.aggK (Cert.Gcn.mat2 (V c main_v19 : S10240x10240.Idx → EReal)) (Cert.Gcn.mat2 (V c main_v43 : S10240x128.Idx → EReal)) i j
          + Cert.Gcn.row2 (V c main_v46 : S1x128.Idx → EReal) 0 j) i j :=
  congrFun ((dat6 V c).arrAt_eq_of_cover 3 (out_agg6 V c) (flushed_agg6_eq V c) cover_agg6) (ix2 i j)

end Cert.KernelIdeal.Hand

end
-- ==== Proof.KI.KernelValue.lean ====
import proofs.«405037_j79285096284452_1_alg».proof.Proof.KI.PDats
import proofs.«405037_j79285096284452_1_alg».proof.Proof.KI.HostVal
import proofs.«405037_j79285096284452_1_alg».proof.Proof.KI.ValLin0
import proofs.«405037_j79285096284452_1_alg».proof.Proof.KI.ValLin1
import proofs.«405037_j79285096284452_1_alg».proof.Proof.KI.ValLin3
import proofs.«405037_j79285096284452_1_alg».proof.Proof.KI.ValLin5
import proofs.«405037_j79285096284452_1_alg».proof.Proof.KI.ValLin7
import proofs.«405037_j79285096284452_1_alg».proof.Proof.KI.ValAgg2
import proofs.«405037_j79285096284452_1_alg».proof.Proof.KI.ValAgg4
import proofs.«405037_j79285096284452_1_alg».proof.Proof.KI.ValAgg6

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Cert.Gcn Cert.KernelIdeal.HostVal

variable (m : (ℓ : Loc nD τ sig) → Buf (Elt Ideal) ℓ) (ρ : Dev nD → PrngReg) (c : Dev nD)

private def Wn : ℕ → Valuation τ sig (Elt Ideal)
  | 0 => W0 m ρ c | 1 => W1 m ρ c | 2 => W2 m ρ c | 3 => W3 m ρ c | 4 => W4 m ρ c | 5 => W5 m ρ c
  | 6 => W6 m ρ c | 7 => W7 m ρ c | 8 => W8 m ρ c | 9 => W9 m ρ c | 10 => W10 m ρ c | 11 => W11 m ρ c
  | 12 => W12 m ρ c | 13 => W13 m ρ c | 14 => W14 m ρ c | 15 => W15 m ρ c | 16 => W16 m ρ c | _ => W17 m ρ c

private def writes : ℕ → List (Ref sig .tc)
  | 0 => hostOps0_W | 1 => hostOps0_1_W | 2 => hostOps0_2_W | 3 => [Pipeline.arrRef spec0 3]
  | 4 => hostOps1_W | 5 => [Pipeline.arrRef spec1 3] | 6 => hostOps2_W | 7 => [Pipeline.arrRef spec2 3]
  | 8 => hostOps3_W | 9 => [Pipeline.arrRef spec3 3] | 10 => hostOps4_W | 11 => [Pipeline.arrRef spec4 3]
  | 12 => hostOps5_W | 13 => [Pipeline.arrRef spec5 3] | 14 => hostOps6_W | 15 => [Pipeline.arrRef spec6 3]
  | _ => hostOps7_W

private theorem Wn_step (b : Ref sig .tc) : ∀ n, n < 17 → b ∉ writes n →
    Wn m ρ c (n + 1) (Proc.devRef .tc b) = Wn m ρ c n (Proc.devRef .tc b)
  | 0, _, h => W1_keep m ρ c b h
  | 1, _, h => W2_keep m ρ c b h
  | 2, _, h => W3_keep m ρ c b h
  | 3, _, h => W4_keep m ρ c b fun e => h (List.mem_singleton.mpr e)
  | 4, _, h => W5_keep m ρ c b h
  | 5, _, h => W6_keep m ρ c b fun e => h (List.mem_singleton.mpr e)
  | 6, _, h => W7_keep m ρ c b h
  | 7, _, h => W8_keep m ρ c b fun e => h (List.mem_singleton.mpr e)
  | 8, _, h => W9_keep m ρ c b h
  | 9, _, h => W10_keep m ρ c b fun e => h (List.mem_singleton.mpr e)
  | 10, _, h => W11_keep m ρ c b h
  | 11, _, h => W12_keep m ρ c b fun e => h (List.mem_singleton.mpr e)
  | 12, _, h => W13_keep m ρ c b h
  | 13, _, h => W14_keep m ρ c b fun e => h (List.mem_singleton.mpr e)
  | 14, _, h => W15_keep m ρ c b h
  | 15, _, h => W16_keep m ρ c b fun e => h (List.mem_singleton.mpr e)
  | 16, _, h => W17_keep m ρ c b h
  | n + 17, hn, _ => absurd hn (by omega)

private theorem walk (b : Ref sig .tc) (i j : ℕ) (h : i ≤ j ∧ j ≤ 17 ∧ ∀ n < j, i ≤ n → b ∉ writes n) :
    Wn m ρ c j (Proc.devRef .tc b) = Wn m ρ c i (Proc.devRef .tc b) := by
  obtain ⟨hij, hj, h⟩ := h
  induction j, hij using Nat.le_induction with
  | base => rfl
  | succ n hn ih =>
    exact (Wn_step m ρ c b n (by omega) (h n n.lt_succ_self hn)).trans (ih (by omega) fun k hk => h k (Nat.lt_succ_of_lt hk))

theorem h0_eq :
    mat2 (W4 m ρ c (Proc.devRef .tc main_v22))
      = tanhM (lin (pad (mat2 (m ((c : Thread nD τ).loc main_arg0)))) (mat2 (m ((c : Thread nD τ).loc main_arg3)))
          (vec1 (m ((c : Thread nD τ).loc main_arg4)))) := by
  funext i j
  have hc : W1 m ρ c (Proc.devRef .tc main_c_3) = fun _ => 0#32 := by
    show StableHlo.after (hostOps0 (F := Ideal)) (W0 m ρ c) (Proc.devRef .tc main_c_3) = _
    after_results
    rfl
  have hx : mat2 (W3 m ρ c (Proc.devRef .tc main_v20)) = pad (mat2 (m ((c : Thread nD τ).loc main_arg0))) := by
    funext i k
    show W3 m ρ c (Proc.devRef .tc main_v20) (ix2 i k) = _
    rw [W3_keep m ρ c main_v20 (by decide)]
    refine (pad_value (W1 m ρ c) hc i k).trans ?_
    rw [show W1 m ρ c (Proc.devRef .tc main_arg0) = _ from walk m ρ c main_arg0 0 1 (by decide)]
    rfl
  have hb : row2 (W3 m ρ c (Proc.devRef .tc main_v21)) 0 = vec1 (m ((c : Thread nD τ).loc main_arg4)) := by
    funext l
    refine (encb_value (W2 m ρ c) l).trans ?_
    rw [show W2 m ρ c (Proc.devRef .tc main_arg4) = _ from walk m ρ c main_arg4 0 2 (by decide)]
    rfl
  show W4 m ρ c (Proc.devRef .tc main_v22) (ix2 i j) = _
  rw [W4_arr m ρ c 3, lin0_value (Vin0 m ρ) c i j]
  show tanhM (lin (mat2 (W3 m ρ c (Proc.devRef .tc main_v20))) (mat2 (W3 m ρ c (Proc.devRef .tc main_arg3)))
    (row2 (W3 m ρ c (Proc.devRef .tc main_v21)) 0)) i j = _
  rw [hx, hb, show W3 m ρ c (Proc.devRef .tc main_arg3) = _ from walk m ρ c main_arg3 0 3 (by decide)]
  rfl

theorem hw1_eq :
    mat2 (W6 m ρ c (Proc.devRef .tc main_v27))
      = lin (mat2 (W4 m ρ c (Proc.devRef .tc main_v22))) (mat3 (m ((c : Thread nD τ).loc main_arg5)) 0) (fun _ => 0) := by
  funext i j
  have hw : mat2 (W5 m ρ c (Proc.devRef .tc main_v25)) = mat3 (m ((c : Thread nD τ).loc main_arg5)) 0 := by
    funext k l
    refine (convW0_value (W4 m ρ c) k l).trans ?_
    rw [show W4 m ρ c (Proc.devRef .tc main_arg5) = _ from walk m ρ c main_arg5 0 4 (by decide)]
    rfl
  have hz : row2 (W5 m ρ c (Proc.devRef .tc main_v26)) 0 = fun _ => (0 : EReal) := by
    funext l
    exact convZ0_value (W4 m ρ c) l
  show W6 m ρ c (Proc.devRef .tc main_v27) (ix2 i j) = _
  rw [W6_arr m ρ c 3, lin1_value (Vin1 m ρ) c i j]
  show lin (mat2 (W5 m ρ c (Proc.devRef .tc main_v22))) (mat2 (W5 m ρ c (Proc.devRef .tc main_v25)))
    (row2 (W5 m ρ c (Proc.devRef .tc main_v26)) 0) i j = _
  rw [hw, hz, W5_keep m ρ c main_v22 (by decide)]

theorem hw2_eq :
    mat2 (W10 m ρ c (Proc.devRef .tc main_v35))
      = lin (mat2 (W8 m ρ c (Proc.devRef .tc main_v31))) (mat3 (m ((c : Thread nD τ).loc main_arg5)) 1) (fun _ => 0) := by
  funext i j
  have hw : mat2 (W9 m ρ c (Proc.devRef .tc main_v33)) = mat3 (m ((c : Thread nD τ).loc main_arg5)) 1 := by
    funext k l
    refine (convW1_value (W8 m ρ c) k l).trans ?_
    rw [show W8 m ρ c (Proc.devRef .tc main_arg5) = _ from walk m ρ c main_arg5 0 8 (by decide)]
    rfl
  have hz : row2 (W9 m ρ c (Proc.devRef .tc main_v34)) 0 = fun _ => (0 : EReal) := by
    funext l
    refine (convZ1_value (W8 m ρ c) l).trans ?_
    rw [show W8 m ρ c (Proc.devRef .tc main_v23) = _ from walk m ρ c main_v23 5 8 (by decide)]
    exact zero_value (W4 m ρ c) l
  show W10 m ρ c (Proc.devRef .tc main_v35) (ix2 i j) = _
  rw [W10_arr m ρ c 3, lin3_value (Vin3 m ρ) c i j]
  show lin (mat2 (W9 m ρ c (Proc.devRef .tc main_v31))) (mat2 (W9 m ρ c (Proc.devRef .tc main_v33)))
    (row2 (W9 m ρ c (Proc.devRef .tc main_v34)) 0) i j = _
  rw [hw, hz, W9_keep m ρ c main_v31 (by decide)]

theorem hw3_eq :
    mat2 (W14 m ρ c (Proc.devRef .tc main_v43))
      = lin (mat2 (W12 m ρ c (Proc.devRef .tc main_v39))) (mat3 (m ((c : Thread nD τ).loc main_arg5)) 2) (fun _ => 0) := by
  funext i j
  have hw : mat2 (W13 m ρ c (Proc.devRef .tc main_v41)) = mat3 (m ((c : Thread nD τ).loc main_arg5)) 2 := by
    funext k l
    refine (convW2_value (W12 m ρ c) k l).trans ?_
    rw [show W12 m ρ c (Proc.devRef .tc main_arg5) = _ from walk m ρ c main_arg5 0 12 (by decide)]
    rfl
  have hz : row2 (W13 m ρ c (Proc.devRef .tc main_v42)) 0 = fun _ => (0 : EReal) := by
    funext l
    refine (convZ2_value (W12 m ρ c) l).trans ?_
    rw [show W12 m ρ c (Proc.devRef .tc main_v23) = _ from walk m ρ c main_v23 5 12 (by decide)]
    exact zero_value (W4 m ρ c) l
  show W14 m ρ c (Proc.devRef .tc main_v43) (ix2 i j) = _
  rw [W14_arr m ρ c 3, lin5_value (Vin5 m ρ) c i j]
  show lin (mat2 (W13 m ρ c (Proc.devRef .tc main_v39))) (mat2 (W13 m ρ c (Proc.devRef .tc main_v41)))
    (row2 (W13 m ρ c (Proc.devRef .tc main_v42)) 0) i j = _
  rw [hw, hz, W13_keep m ρ c main_v39 (by decide)]

theorem adj_eq (s d : Fin E → Fin N)
    (hs : ∀ e : Fin 640000, (m ((c : Thread nD τ).loc main_arg1) (ix2 (0 : Fin 2) e)).toInt = ((s e).val : ℤ))
    (hd : ∀ e : Fin 640000, (m ((c : Thread nD τ).loc main_arg1) (ix2 (1 : Fin 2) e)).toInt = ((d e).val : ℤ)) :
    mat2 (W1 m ρ c (Proc.devRef .tc main_v19)) = adj s d (vec1 (m ((c : Thread nD τ).loc main_arg2))) := by
  funext i j
  exact adj_value (W0 m ρ c) s d hs hd i j

section Agg
variable (s d : Fin E → Fin N)
  (hs : ∀ e : Fin 640000, (m ((c : Thread nD τ).loc main_arg1) (ix2 (0 : Fin 2) e)).toInt = ((s e).val : ℤ))
  (hd : ∀ e : Fin 640000, (m ((c : Thread nD τ).loc main_arg1) (ix2 (1 : Fin 2) e)).toInt = ((d e).val : ℤ))
include hs hd

theorem h1_eq :
    mat2 (W8 m ρ c (Proc.devRef .tc main_v31))
      = tanhM fun i j => aggK (adj s d (vec1 (m ((c : Thread nD τ).loc main_arg2)))) (mat2 (W6 m ρ c (Proc.devRef .tc main_v27))) i j
          + row2 (m ((c : Thread nD τ).loc main_arg6)) 0 j := by
  funext i j
  have hb : row2 (W7 m ρ c (Proc.devRef .tc main_v30)) 0 = row2 (m ((c : Thread nD τ).loc main_arg6)) 0 := by
    funext l
    refine (convb0_value (W6 m ρ c) l).trans ?_
    rw [show W6 m ρ c (Proc.devRef .tc main_arg6) = _ from walk m ρ c main_arg6 0 6 (by decide)]
    rfl
  show W8 m ρ c (Proc.devRef .tc main_v31) (ix2 i j) = _
  rw [W8_arr m ρ c 3, agg2_value (Vin2 m ρ) c i j]
  show tanhM (fun i j => aggK (mat2 (W7 m ρ c (Proc.devRef .tc main_v19))) (mat2 (W7 m ρ c (Proc.devRef .tc main_v27))) i j
      + row2 (W7 m ρ c (Proc.devRef .tc main_v30)) 0 j) i j = _
  rw [hb, show W7 m ρ c (Proc.devRef .tc main_v19) = W1 m ρ c (Proc.devRef .tc main_v19) from walk m ρ c main_v19 1 7 (by decide), adj_eq m ρ c s d hs hd, W7_keep m ρ c main_v27 (by decide)]

theorem h2_eq :
    mat2 (W12 m ρ c (Proc.devRef .tc main_v39))
      = tanhM fun i j => aggK (adj s d (vec1 (m ((c : Thread nD τ).loc main_arg2)))) (mat2 (W10 m ρ c (Proc.devRef .tc main_v35))) i j
          + row2 (m ((c : Thread nD τ).loc main_arg6)) 1 j := by
  funext i j
  have hb : row2 (W11 m ρ c (Proc.devRef .tc main_v38)) 0 = row2 (m ((c : Thread nD τ).loc main_arg6)) 1 := by
    funext l
    refine (convb1_value (W10 m ρ c) l).trans ?_
    rw [show W10 m ρ c (Proc.devRef .tc main_arg6) = _ from walk m ρ c main_arg6 0 10 (by decide)]
    rfl
  show W12 m ρ c (Proc.devRef .tc main_v39) (ix2 i j) = _
  rw [W12_arr m ρ c 3, agg4_value (Vin4 m ρ) c i j]
  show tanhM (fun i j => aggK (mat2 (W11 m ρ c (Proc.devRef .tc main_v19))) (mat2 (W11 m ρ c (Proc.devRef .tc main_v35))) i j
      + row2 (W11 m ρ c (Proc.devRef .tc main_v38)) 0 j) i j = _
  rw [hb, show W11 m ρ c (Proc.devRef .tc main_v19) = W1 m ρ c (Proc.devRef .tc main_v19) from walk m ρ c main_v19 1 11 (by decide), adj_eq m ρ c s d hs hd, W11_keep m ρ c main_v35 (by decide)]

theorem h3_eq :
    mat2 (W16 m ρ c (Proc.devRef .tc main_v47))
      = tanhM fun i j => aggK (adj s d (vec1 (m ((c : Thread nD τ).loc main_arg2)))) (mat2 (W14 m ρ c (Proc.devRef .tc main_v43))) i j
          + row2 (m ((c : Thread nD τ).loc main_arg6)) 2 j := by
  funext i j
  have hb : row2 (W15 m ρ c (Proc.devRef .tc main_v46)) 0 = row2 (m ((c : Thread nD τ).loc main_arg6)) 2 := by
    funext l
    refine (convb2_value (W14 m ρ c) l).trans ?_
    rw [show W14 m ρ c (Proc.devRef .tc main_arg6) = _ from walk m ρ c main_arg6 0 14 (by decide)]
    rfl
  show W16 m ρ c (Proc.devRef .tc main_v47) (ix2 i j) = _
  rw [W16_arr m ρ c 3, agg6_value (Vin6 m ρ) c i j]
  show tanhM (fun i j => aggK (mat2 (W15 m ρ c (Proc.devRef .tc main_v19))) (mat2 (W15 m ρ c (Proc.devRef .tc main_v43))) i j
      + row2 (W15 m ρ c (Proc.devRef .tc main_v46)) 0 j) i j = _
  rw [hb, show W15 m ρ c (Proc.devRef .tc main_v19) = W1 m ρ c (Proc.devRef .tc main_v19) from walk m ρ c main_v19 1 15 (by decide), adj_eq m ρ c s d hs hd, W15_keep m ρ c main_v43 (by decide)]

end Agg

theorem out_eq :
    mat2 (W18 m ρ c (Proc.devRef .tc main_v49))
      = lin (mat2 (W16 m ρ c (Proc.devRef .tc main_v47))) (mat2 (m ((c : Thread nD τ).loc main_arg7))) (vec1 (m ((c : Thread nD τ).loc main_arg8))) := by
  funext i j
  have hb : row2 (W17 m ρ c (Proc.devRef .tc main_v48)) 0 = vec1 (m ((c : Thread nD τ).loc main_arg8)) := by
    funext l
    refine (decb_value (W16 m ρ c) l).trans ?_
    rw [show W16 m ρ c (Proc.devRef .tc main_arg8) = _ from walk m ρ c main_arg8 0 16 (by decide)]
    rfl
  show W18 m ρ c (Proc.devRef .tc main_v49) (ix2 i j) = _
  rw [W18_arr m ρ c 3, lin7_value (Vin7 m ρ) c i j]
  show lin (mat2 (W17 m ρ c (Proc.devRef .tc main_v47))) (mat2 (W17 m ρ c (Proc.devRef .tc main_arg7)))
    (row2 (W17 m ρ c (Proc.devRef .tc main_v48)) 0) i j = _
  rw [hb, show W17 m ρ c (Proc.devRef .tc main_arg7) = _ from walk m ρ c main_arg7 0 17 (by decide), W17_keep m ρ c main_v47 (by decide)]
  rfl

theorem kernel_value (m : (ℓ : Loc nD τ sig) → Buf (Elt Ideal) ℓ) (ρ : Dev nD → PrngReg) (c : Dev nD)
    (s d : Fin Cert.Gcn.E → Fin Cert.Gcn.N)
    (hs : ∀ e : Fin 640000, (m ((c : Thread nD τ).loc main_arg1) (ix2 (0 : Fin 2) e)).toInt = ((s e).val : ℤ))
    (hd : ∀ e : Fin 640000, (m ((c : Thread nD τ).loc main_arg1) (ix2 (1 : Fin 2) e)).toInt = ((d e).val : ℤ))
    (p : Fin 10000) (q : Fin 64) :
    W19 (F := Ideal) m ρ c (Proc.devRef .tc main_v50) (ix2 p q)
      = Cert.Gcn.kernelOut s d (vec1 (m ((c : Thread nD τ).loc main_arg2))) (mat2 (m ((c : Thread nD τ).loc main_arg0)))
          (mat2 (m ((c : Thread nD τ).loc main_arg3))) (vec1 (m ((c : Thread nD τ).loc main_arg4)))
          (mat3 (m ((c : Thread nD τ).loc main_arg5)) 0) (row2 (m ((c : Thread nD τ).loc main_arg6)) 0)
          (mat3 (m ((c : Thread nD τ).loc main_arg5)) 1) (row2 (m ((c : Thread nD τ).loc main_arg6)) 1)
          (mat3 (m ((c : Thread nD τ).loc main_arg5)) 2) (row2 (m ((c : Thread nD τ).loc main_arg6)) 2)
          (mat2 (m ((c : Thread nD τ).loc main_arg7))) (vec1 (m ((c : Thread nD τ).loc main_arg8))) p q := by
  refine (out_value (W18 m ρ c) p q).trans ?_
  show mat2 (W18 m ρ c (Proc.devRef .tc main_v49)) ⟨p.val, Nat.lt_of_lt_of_le p.isLt (by decide)⟩ q = _
  rw [out_eq m ρ c, h3_eq m ρ c s d hs hd, hw3_eq m ρ c, h2_eq m ρ c s d hs hd, hw2_eq m ρ c, h1_eq m ρ c s d hs hd,
    hw1_eq m ρ c, h0_eq m ρ c]
  rfl

end Cert.KernelIdeal.Hand

end
-- ==== Proof.RefRead.lean ====
import proofs.«405037_j79285096284452_1_alg».proof.Proof.Gen.ReferenceIdeal.Read
-- ==== Proof.RefValue.lean ====
import proofs.«405037_j79285096284452_1_alg».proof.Proof.RefRead
import proofs.«405037_j79285096284452_1_alg».proof.Proof.LibSegmentScatter
import proofs.«405037_j79285096284452_1_alg».proof.Proof.Spec

noncomputable section

namespace Cert.RefValue

open Cert.ReferenceIdeal Cert.ReferenceIdeal.Gen Cert.ReferenceIdeal.Read Idealize.ShloMosaic Idealize.ShloMosaic.StableHlo
open Idealize.ShloMosaic.ValueIdx Cert.LibSegmentScatter Cert.Gcn
open scoped BigOperators

theorem norm_word (a : BitVec 32) (h : 0 ≤ a.toInt) :
    Scalar.select (IntOp.cmpi .slt a 0#32) (IntOp.addi a 10000#32) a = a := by
  rw [show IntOp.cmpi .slt a 0#32 = 0#1 from by
    unfold IntOp.cmpi
    show BitVec.ofBool (a.slt 0#32) = 0#1
    rw [show a.slt 0#32 = false from decide_eq_false (not_lt.2 h)]; rfl]
  exact select_zero _ _

theorem dot_at (h : FVec Ideal S10000x128 .f32) (W : FVec Ideal S128x128 .f32)
    (p : Fin 10000) (k : Fin 128) :
    val_main_v0 (F := Ideal) h W (ix2 p k) = mm (mat2 h) (mat2 W) p k := by
  rw [val_main_v0_apply]
  unfold mm
  refine Finset.sum_congr rfl fun t _ => ?_
  have e1 : lidx_main_v0 (ix2 p k) t = ix2 p t :=
    funext fun a => Fin.ext (by match a with | ⟨0, _⟩ => rfl | ⟨1, _⟩ => rfl)
  have e2 : ridx_main_v0 (ix2 p k) t = ix2 t k :=
    funext fun a => Fin.ext (by match a with | ⟨0, _⟩ => rfl | ⟨1, _⟩ => rfl)
  rw [e1, e2]

theorem gather_at (hw : FVec Ideal S10000x128 .f32) (si : IVec S640000x1 32)
    (s : Fin E → Fin N) (hsi : ∀ e : Fin 640000, (si (ix2 e (0 : Fin 1))).toInt = ((s e).val : ℤ))
    (e : Fin 640000) (k : Fin 128) :
    Host.gather gather_S10000x128_S640000x1_S640000x128_1_0_n_n_0_1_1128 hw si (ix2 e k) = hw (ix2 (s e) k) := by
  refine (gather_rows_apply (by decide) gather_S10000x128_S640000x1_S640000x128_1_0_n_n_0_1_1128_wf hw si e k).trans (congrArg (fun i => hw (ix2 i k)) (Fin.ext ?_))
  show min _ _ = _
  rw [hsi e]
  have h1 : (s e).val < 10000 := (s e).isLt
  omega

theorem scatter_at (z : FVec Ideal S10000x128 .f32) (di : IVec S640000x1 32)
    (upd : FVec Ideal S640000x128 .f32)
    (d : Fin E → Fin N) (hdi : ∀ e : Fin 640000, (di (ix2 e (0 : Fin 1))).toInt = ((d e).val : ℤ))
    (v : Fin 10000) (k : Fin 128) :
    Host.scatterAdd (F := Ideal) (φ := .f32) scatter_S10000x128_S640000x1_S640000x128_1_0_0_1 z di upd (ix2 v k)
      = z (ix2 v k) + ∑ e : Fin 640000, if d e = v then upd (ix2 e k) else 0 := by
  refine (scatterAdd_rows_apply scatter_S10000x128_S640000x1_S640000x128_1_0_0_1_wf z di upd v k).trans ?_
  refine congrArg (fun t => z (ix2 v k) + t) (Finset.sum_congr rfl fun e _ => ?_)
  simp only [hdi e, Nat.cast_inj, Fin.val_inj]

theorem layer_at {h : FVec Ideal S10000x128 .f32} {W : FVec Ideal S128x128 .f32} {si : IVec S640000x1 32} {wt : FVec Ideal S640000x128 .f32}
    {z : FVec Ideal S10000x128 .f32} {di : IVec S640000x1 32} {bias : FVec Ideal S10000x128 .f32}
    {s d : Fin E → Fin N} {w : Fin E → EReal} {b : Fin 128 → EReal}
    (hsi : ∀ e : Fin 640000, (si (ix2 e (0 : Fin 1))).toInt = ((s e).val : ℤ))
    (hdi : ∀ e : Fin 640000, (di (ix2 e (0 : Fin 1))).toInt = ((d e).val : ℤ))
    (hwt : ∀ (e : Fin 640000) (k : Fin 128), wt (ix2 e k) = w e)
    (hz : ∀ (v : Fin 10000) (k : Fin 128), z (ix2 v k) = 0)
    (hb : ∀ (v : Fin 10000) (k : Fin 128), bias (ix2 v k) = b k)
    (p : Fin 10000) (k : Fin 128) :
    Host.tanh (F := Ideal) (φ := .f32) (addf (Host.scatterAdd (F := Ideal) (φ := .f32) scatter_S10000x128_S640000x1_S640000x128_1_0_0_1 z di
        (mulf (Host.gather gather_S10000x128_S640000x1_S640000x128_1_0_n_n_0_1_1128 (val_main_v0 (F := Ideal) h W) si) wt)) bias) (ix2 p k)
      = layerR s d w (mat2 W) b (mat2 h) p k := by
  show FloatOps.hostUnary .tanh (FloatOps.addf (Host.scatterAdd (F := Ideal) (φ := .f32) scatter_S10000x128_S640000x1_S640000x128_1_0_0_1 z di
        (mulf (Host.gather gather_S10000x128_S640000x1_S640000x128_1_0_n_n_0_1_1128 (val_main_v0 (F := Ideal) h W) si) wt) (ix2 p k))
        (bias (ix2 p k))) = _
  rw [Ideal.hostUnary_tanh_def, Ideal.addf_def, scatter_at _ _ _ d hdi, hz, hb]
  unfold layerR tanhM aggR
  show Ideal.tanh ((0 + ∑ e : Fin 640000, if d e = p then _ else 0) + b k) = Ideal.tanh ((0 + ∑ e : Fin 640000, if d e = p then _ else 0) + b k)
  refine congrArg (fun t => Ideal.tanh ((0 + t) + b k)) (Finset.sum_congr rfl fun e _ => ?_)
  by_cases hd : d e = p
  · rw [if_pos hd, if_pos hd, mulf_apply, gather_at _ _ s hsi, dot_at, hwt]
  · rw [if_neg hd, if_neg hd]

section Stages

variable (x0 : (⟨S10000x128, .f32⟩ : BufTy).Contents (Elt Ideal)) (x1 : (⟨S2x640000, .i32⟩ : BufTy).Contents (Elt Ideal))
  (x2 : (⟨S640000, .f32⟩ : BufTy).Contents (Elt Ideal)) (x3 : (⟨S128x128, .f32⟩ : BufTy).Contents (Elt Ideal))
  (x4 : (⟨S128, .f32⟩ : BufTy).Contents (Elt Ideal)) (x5 : (⟨S3x128x128, .f32⟩ : BufTy).Contents (Elt Ideal))
  (x6 : (⟨S3x128, .f32⟩ : BufTy).Contents (Elt Ideal)) (x7 : (⟨S128x64, .f32⟩ : BufTy).Contents (Elt Ideal))
  (x8 : (⟨S64, .f32⟩ : BufTy).Contents (Elt Ideal))

theorem src_at (e : Fin 640000) : val_main_v6 (F := Ideal) x1 (ix1 e) = x1 (ix2 (0 : Fin 2) e) := by
  rw [val_main_v6_apply, val_main_v5_apply]
  refine congrArg x1 (funext fun a => Fin.ext ?_)
  match a with
  | ⟨0, _⟩ => rfl
  | ⟨1, _⟩ => exact Nat.mod_eq_of_lt e.isLt

theorem dst_at (e : Fin 640000) : val_main_v8 (F := Ideal) x1 (ix1 e) = x1 (ix2 (1 : Fin 2) e) := by
  rw [val_main_v8_apply, val_main_v7_apply]
  refine congrArg x1 (funext fun a => Fin.ext ?_)
  match a with
  | ⟨0, _⟩ => rfl
  | ⟨1, _⟩ => exact Nat.mod_eq_of_lt e.isLt

theorem srcIdx_at (s : Fin E → Fin N)
    (hs : ∀ e : Fin 640000, (x1 (ix2 (0 : Fin 2) e)).toInt = ((s e).val : ℤ)) (e : Fin 640000) :
    (val_main_v17 (F := Ideal) x1 (ix2 e (0 : Fin 1))).toInt = ((s e).val : ℤ) := by
  have hi : idx_main_v17 (ix2 e (0 : Fin 1)) = ix1 e :=
    funext fun a => Fin.ext (by match a with | ⟨0, _⟩ => rfl)
  rw [val_main_v17_apply, hi, val_main_v16_apply, val_main_v13_apply, val_main_v15_apply, val_main_v12_apply,
    val_main_v14_apply, val_main_c_apply, val_main_c_0_apply, src_at,
    norm_word _ (by rw [hs e]; exact Int.natCast_nonneg _), hs e]

theorem dstIdx_at (d : Fin E → Fin N)
    (hd : ∀ e : Fin 640000, (x1 (ix2 (1 : Fin 2) e)).toInt = ((d e).val : ℤ)) (e : Fin 640000) :
    (val_main_v23 (F := Ideal) x1 (ix2 e (0 : Fin 1))).toInt = ((d e).val : ℤ) := by
  have hi : idx_main_v23 (ix2 e (0 : Fin 1)) = ix1 e :=
    funext fun a => Fin.ext (by match a with | ⟨0, _⟩ => rfl)
  rw [val_main_v23_apply, hi, dst_at, hd e]

theorem wt_at (e : Fin 640000) (k : Fin 128) : val_main_v20 (F := Ideal) x2 (ix2 e k) = vec1 x2 e := by
  rw [val_main_v20_apply, val_main_v19_apply]
  exact congrArg x2 (funext fun a => Fin.ext (by match a with | ⟨0, _⟩ => rfl))

theorem zero_at (v : Fin 10000) (k : Fin 128) : (val_main_v22 (F := Ideal) (ix2 v k) : EReal) = 0 := by
  rw [val_main_v22_apply, val_main_cst_apply, Ideal.ofBits_def, Ideal.ofBits_zero_f32]

theorem bias_at (v : Fin 10000) (k : Fin 128) :
    val_main_v28 (F := Ideal) x6 (ix2 v k) = row2 x6 0 k ∧ val_main_v50 (F := Ideal) x6 (ix2 v k) = row2 x6 1 k
      ∧ val_main_v72 (F := Ideal) x6 (ix2 v k) = row2 x6 2 k := by
  rw [val_main_v28_apply, val_main_v27_apply, val_main_v26_apply, val_main_v25_apply, val_main_v50_apply, val_main_v49_apply,
    val_main_v48_apply, val_main_v47_apply, val_main_v72_apply, val_main_v71_apply, val_main_v70_apply, val_main_v69_apply]
  refine ⟨?_, ?_, ?_⟩ <;> refine congrArg x6 (funext fun a => Fin.ext ?_) <;>
    match a with
    | ⟨0, _⟩ => rfl
    | ⟨1, _⟩ => exact Nat.mod_eq_of_lt k.isLt

theorem w_eq : mat2 (val_main_v10 (F := Ideal) x5) = mat3 x5 0 ∧ mat2 (val_main_v32 (F := Ideal) x5) = mat3 x5 1
    ∧ mat2 (val_main_v54 (F := Ideal) x5) = mat3 x5 2 := by
  refine ⟨?_, ?_, ?_⟩ <;> funext t k <;>
    simp only [mat2, mat3, val_main_v10_apply, val_main_v9_apply, val_main_v32_apply, val_main_v31_apply, val_main_v54_apply,
      val_main_v53_apply] <;>
    refine congrArg x5 (funext fun a => Fin.ext ?_) <;> have ht : t.val < 128 := t.isLt <;> have hk : k.val < 128 := k.isLt <;>
    match a with
    | ⟨0, _⟩ => rfl
    | ⟨1, _⟩ => show (t.val * 128 + k.val) / 128 % 128 = t.val; omega
    | ⟨2, _⟩ => show (t.val * 128 + k.val) % 128 = k.val; omega

theorem enc_eq : mat2 (val_main_v4 (F := Ideal) x0 x3 x4) = tanhM (lin (mat2 x0) (mat2 x3) (vec1 x4)) := by
  funext p k
  show val_main_v4 (F := Ideal) x0 x3 x4 (ix2 p k) = Ideal.tanh (mm (mat2 x0) (mat2 x3) p k + x4 (ix1 k))
  rw [val_main_v4_apply, val_main_v3_apply, Ideal.hostUnary_tanh_def, Ideal.addf_def, dot_at, val_main_v2_apply,
    val_main_v1_apply]
  refine congrArg (fun t => Ideal.tanh (mm (mat2 x0) (mat2 x3) p k + t)) ?_
  exact congrArg x4 (funext fun a => Fin.ext (by match a with | ⟨0, _⟩ => rfl))

variable (s d : Fin E → Fin N)
  (hs : ∀ e : Fin 640000, (x1 (ix2 (0 : Fin 2) e)).toInt = ((s e).val : ℤ))
  (hd : ∀ e : Fin 640000, (x1 (ix2 (1 : Fin 2) e)).toInt = ((d e).val : ℤ))

include hs hd

theorem layer0_eq :
    mat2 (val_main_v30 (F := Ideal) x0 x1 x2 x3 x4 x5 x6)
      = layerR s d (vec1 x2) (mat3 x5 0) (row2 x6 0) (mat2 (val_main_v4 (F := Ideal) x0 x3 x4)) := by
  funext p k
  rw [← (w_eq x5).1]
  exact layer_at (srcIdx_at x1 s hs) (dstIdx_at x1 d hd) (wt_at x2) zero_at (fun v k => (bias_at x6 v k).1) p k

theorem layer1_eq :
    mat2 (val_main_v52 (F := Ideal) x0 x1 x2 x3 x4 x5 x6)
      = layerR s d (vec1 x2) (mat3 x5 1) (row2 x6 1) (mat2 (val_main_v30 (F := Ideal) x0 x1 x2 x3 x4 x5 x6)) := by
  funext p k
  rw [← (w_eq x5).2.1]
  exact layer_at (srcIdx_at x1 s hs) (dstIdx_at x1 d hd) (wt_at x2) zero_at (fun v k => (bias_at x6 v k).2.1) p k

theorem layer2_eq :
    mat2 (val_main_v74 (F := Ideal) x0 x1 x2 x3 x4 x5 x6)
      = layerR s d (vec1 x2) (mat3 x5 2) (row2 x6 2) (mat2 (val_main_v52 (F := Ideal) x0 x1 x2 x3 x4 x5 x6)) := by
  funext p k
  rw [← (w_eq x5).2.2]
  exact layer_at (srcIdx_at x1 s hs) (dstIdx_at x1 d hd) (wt_at x2) zero_at (fun v k => (bias_at x6 v k).2.2) p k

omit hs hd in

theorem dec_at (p : Fin 10000) (q : Fin 64) :
    val_main_v78 (F := Ideal) x0 x1 x2 x3 x4 x5 x6 x7 x8 (ix2 p q)
      = lin (mat2 (val_main_v74 (F := Ideal) x0 x1 x2 x3 x4 x5 x6)) (mat2 x7) (vec1 x8) p q := by
  rw [val_main_v78_apply, val_main_v75_apply, val_main_v77_apply, val_main_v76_apply, Ideal.addf_def]
  unfold lin mm
  have e3 : idx_main_v76 (idx_main_v77 (ix2 p q)) = ix1 q :=
    funext fun a => Fin.ext (by match a with | ⟨0, _⟩ => rfl)
  rw [e3]
  refine congrArg (fun t => t + x8 (ix1 q)) (Finset.sum_congr rfl fun t _ => ?_)
  have e1 : lidx_main_v75 (ix2 p q) t = ix2 p t :=
    funext fun a => Fin.ext (by match a with | ⟨0, _⟩ => rfl | ⟨1, _⟩ => rfl)
  have e2 : ridx_main_v75 (ix2 p q) t = ix2 t q :=
    funext fun a => Fin.ext (by match a with | ⟨0, _⟩ => rfl | ⟨1, _⟩ => rfl)
  rw [e1, e2]

theorem ref_value (p : Fin 10000) (q : Fin 64) :
    val_main_v78 (F := Ideal) x0 x1 x2 x3 x4 x5 x6 x7 x8 (ix2 p q)
      = refOut s d (vec1 x2) (mat2 x0) (mat2 x3) (vec1 x4) (mat3 x5 0) (row2 x6 0) (mat3 x5 1) (row2 x6 1)
          (mat3 x5 2) (row2 x6 2) (mat2 x7) (vec1 x8) p q := by
  rw [dec_at, layer2_eq x0 x1 x2 x3 x4 x5 x6 s d hs hd, layer1_eq x0 x1 x2 x3 x4 x5 x6 s d hs hd,
    layer0_eq x0 x1 x2 x3 x4 x5 x6 s d hs hd, enc_eq]
  rfl

end Stages

end Cert.RefValue

end
-- ==== Proof.SpecEq.lean ====
import proofs.«405037_j79285096284452_1_alg».proof.Proof.Spec
import Mathlib.Data.EReal.Basic
import Mathlib.Data.EReal.Operations
import Mathlib.Algebra.BigOperators.Ring.Finset
import Mathlib.Algebra.BigOperators.Group.Finset.Piecewise
import Mathlib.Algebra.BigOperators.Group.Finset.Sigma
import Mathlib.Logic.Equiv.Fin.Basic

noncomputable section

namespace Cert.Gcn

open Idealize.ShloMosaic
open scoped BigOperators

theorem coe_sum {ι : Type} (t : Finset ι) (g : ι → ℝ) :
    ((∑ i ∈ t, g i : ℝ) : EReal) = ∑ i ∈ t, (g i : EReal) :=
  map_sum (⟨⟨Real.toEReal, EReal.coe_zero⟩, EReal.coe_add⟩ : ℝ →+ EReal) g t

theorem tanh_real (x : EReal) : ∃ r : ℝ, Ideal.tanh x = (r : EReal) := by
  induction x with
  | bot => exact ⟨-1, by rw [Ideal.tanh_bot, EReal.coe_neg, EReal.coe_one]⟩
  | coe a => exact ⟨Real.tanh a, rfl⟩
  | top => exact ⟨1, by rw [Ideal.tanh_top, EReal.coe_one]⟩

theorem tanhM_real {n c : ℕ} (x : Mat n c) (i : Fin n) (j : Fin c) : ∃ r : ℝ, tanhM x i j = (r : EReal) :=
  tanh_real _

theorem mm_real {n k c : ℕ} (x : Mat n k) (y : Mat k c) (hx : ∀ i t, ∃ r : ℝ, x i t = (r : EReal))
    (hy : ∀ t j, ∃ r : ℝ, y t j = (r : EReal)) (i : Fin n) (j : Fin c) : ∃ r : ℝ, mm x y i j = (r : EReal) := by
  choose xr hxr using hx
  choose yr hyr using hy
  refine ⟨∑ t, xr i t * yr t j, ?_⟩
  rw [coe_sum]
  refine Finset.sum_congr rfl fun t _ => ?_
  rw [hxr, hyr, EReal.coe_mul]

theorem lin_zero {n k c : ℕ} (x : Mat n k) (y : Mat k c) (i : Fin n) (j : Fin c) :
    lin x y (fun _ => 0) i j = mm x y i j := add_zero _

def up (i : Fin N) : Fin NP := ⟨i.val, by have h : i.val < 10000 := i.isLt; show _ < 10240; omega⟩

def col (mb : Fin 4) (k : Fin 2560) : Fin NP :=
  ⟨2560 * mb.val + k.val, by have := mb.isLt; have := k.isLt; show _ < 10240; omega⟩

theorem blk_eq (a : Mat NP NP) (hw : Mat NP 128) (mb : Fin 4) (i : Fin NP) (j : Fin 128) :
    blk a hw mb i j = ∑ k : Fin 2560, a i (col mb k) * hw (col mb k) j := rfl

theorem col_eq (mb : Fin 4) (k : Fin 2560) :
    col mb k = (finProdFinEquiv : Fin 4 × Fin 2560 ≃ Fin NP) (mb, k) :=
  Fin.ext (by show 2560 * mb.val + k.val = k.val + 2560 * mb.val; omega)

theorem aggK_eq_sum (a : Mat NP NP) (hw : Mat NP 128) (i : Fin NP) (c : Fin 128) :
    aggK a hw i c = ∑ j : Fin NP, a i j * hw j c := by
  have h4 : aggK a hw i c = ∑ mb : Fin 4, blk a hw mb i c := by
    rw [Fin.sum_univ_four]; unfold aggK; rw [zero_add]
  rw [h4]
  simp only [blk_eq]
  calc ∑ mb : Fin 4, ∑ k : Fin 2560, a i (col mb k) * hw (col mb k) c
      = ∑ p : Fin 4 × Fin 2560, a i (col p.1 p.2) * hw (col p.1 p.2) c :=
        (Fintype.sum_prod_type' fun mb k => a i (col mb k) * hw (col mb k) c).symm
    _ = ∑ j : Fin NP, a i j * hw j c :=
        Fintype.sum_equiv (finProdFinEquiv : Fin 4 × Fin 2560 ≃ Fin NP) _ (fun j => a i j * hw j c)
          (fun p => by rw [col_eq])

theorem agg_real (s d : Fin E → Fin N) (wr : Fin E → ℝ) (g : Fin NP → ℝ) (i : Fin N) :
    ∑ j : Fin NP, (∑ e, if (d e).val = (up i).val ∧ (s e).val = j.val then wr e else 0) * g j
      = ∑ e, if d e = i then g (up (s e)) * wr e else 0 := by
  simp only [Finset.sum_mul]
  rw [Finset.sum_comm]
  refine Finset.sum_congr rfl fun e _ => ?_
  by_cases hd : d e = i
  · have hv : (d e).val = (up i).val := by rw [hd]; rfl
    have hterm : ∀ j : Fin NP,
        (if (d e).val = (up i).val ∧ (s e).val = j.val then wr e else 0) * g j
          = if up (s e) = j then wr e * g j else 0 := by
      intro j
      have hiff : ((d e).val = (up i).val ∧ (s e).val = j.val) ↔ up (s e) = j :=
        ⟨fun h => Fin.ext h.2, fun h => ⟨hv, by rw [← h]; rfl⟩⟩
      rw [if_congr hiff rfl rfl, ite_mul, zero_mul]
    simp only [hterm]
    rw [Finset.sum_ite_eq, if_pos (Finset.mem_univ _), if_pos hd, mul_comm]
  · rw [if_neg hd]
    refine Finset.sum_eq_zero fun j _ => ?_
    rw [if_neg (fun h => hd (Fin.ext h.1)), zero_mul]

theorem adj_real (s d : Fin E → Fin N) (wr : Fin E → ℝ) (i j : Fin NP) :
    adj s d (fun e => (wr e : EReal)) i j
      = ((∑ e, if (d e).val = i.val ∧ (s e).val = j.val then wr e else 0 : ℝ) : EReal) := by
  rw [coe_sum]
  refine Finset.sum_congr rfl fun e _ => ?_
  split_ifs <;> rfl

theorem agg_eq (s d : Fin E → Fin N) (w : Fin E → EReal) (hw : ∀ e, ∃ r : ℝ, w e = (r : EReal))
    (pk : Mat NP 128) (pr : Mat N 128) (hreal : ∀ j c, ∃ r : ℝ, pk j c = (r : EReal))
    (hag : ∀ (j : Fin N) c, pk (up j) c = pr j c) (i : Fin N) (c : Fin 128) :
    aggK (adj s d w) pk (up i) c = aggR s d w pr i c := by
  choose wr hwr using hw
  obtain rfl : w = fun e => (wr e : EReal) := funext hwr
  choose g hg using hreal
  rw [aggK_eq_sum]
  have hL : ∀ j : Fin NP, adj s d (fun e => (wr e : EReal)) (up i) j * pk j c
      = (((∑ e, if (d e).val = (up i).val ∧ (s e).val = j.val then wr e else 0) * g j c : ℝ) : EReal) := by
    intro j; rw [adj_real, hg, EReal.coe_mul]
  simp only [hL]
  rw [← coe_sum, agg_real s d wr (fun j => g j c) i, coe_sum]
  refine Finset.sum_congr rfl fun e _ => ?_
  split_ifs
  · rw [← hag, hg, EReal.coe_mul]
  · rfl

theorem layerK_real (a : Mat NP NP) (W : Mat 128 128) (b : Fin 128 → EReal) (h : Mat NP 128) (i : Fin NP)
    (c : Fin 128) : ∃ r : ℝ, layerK a W b h i c = (r : EReal) :=
  tanh_real _

theorem layer_eq (s d : Fin E → Fin N) (w : Fin E → EReal) (hw : ∀ e, ∃ r : ℝ, w e = (r : EReal))
    (W : Mat 128 128) (b : Fin 128 → EReal) (hW : ∀ k j, ∃ r : ℝ, W k j = (r : EReal))
    (hk : Mat NP 128) (hr : Mat N 128) (hreal : ∀ i c, ∃ r : ℝ, hk i c = (r : EReal))
    (hag : ∀ (i : Fin N) c, hk (up i) c = hr i c) (i : Fin N) (c : Fin 128) :
    layerK (adj s d w) W b hk (up i) c = layerR s d w W b hr i c := by
  show Ideal.tanh (aggK (adj s d w) (lin hk W fun _ => 0) (up i) c + b c)
    = Ideal.tanh ((0 + aggR s d w (mm hr W) i c) + b c)
  rw [zero_add, agg_eq s d w hw (lin hk W fun _ => 0) (mm hr W) ?_ ?_ i c]
  · intro j c'
    rw [lin_zero]
    exact mm_real hk W hreal hW j c'
  · intro j c'
    rw [lin_zero]
    exact Finset.sum_congr rfl fun t _ => by rw [hag]

theorem enc_eq (x : Mat N 128) (encW : Mat 128 128) (encb : Fin 128 → EReal) (i : Fin N) (c : Fin 128) :
    tanhM (lin (pad x) encW encb) (up i) c = tanhM (lin x encW encb) i c := by
  have hp : ∀ t, pad x (up i) t = x i t := by
    intro t
    have hi : (up i).val < N := i.isLt
    show (if h : (up i).val < N then x ⟨(up i).val, h⟩ t else 0) = x i t
    rw [dif_pos hi]
    rfl
  show Ideal.tanh ((∑ t, pad x (up i) t * encW t c) + encb c) = Ideal.tanh ((∑ t, x i t * encW t c) + encb c)
  simp only [hp]

theorem kernelOut_eq_refOut (s d : Fin E → Fin N) (w : Fin E → EReal) (hw : ∀ e, ∃ r : ℝ, w e = (r : EReal))
    (x : Mat N 128) (encW : Mat 128 128) (encb : Fin 128 → EReal) (W0 : Mat 128 128) (b0 : Fin 128 → EReal)
    (W1 : Mat 128 128) (b1 : Fin 128 → EReal)
    (W2 : Mat 128 128) (b2 : Fin 128 → EReal) (decW : Mat 128 64) (decb : Fin 64 → EReal)
    (hW0 : ∀ k j, ∃ r : ℝ, W0 k j = (r : EReal)) (hW1 : ∀ k j, ∃ r : ℝ, W1 k j = (r : EReal))
    (hW2 : ∀ k j, ∃ r : ℝ, W2 k j = (r : EReal)) :
    kernelOut s d w x encW encb W0 b0 W1 b1 W2 b2 decW decb
      = refOut s d w x encW encb W0 b0 W1 b1 W2 b2 decW decb := by
  funext i j
  have h1 := layer_eq s d w hw W0 b0 hW0 _ _ (tanhM_real (lin (pad x) encW encb)) (enc_eq x encW encb)
  have h2 := layer_eq s d w hw W1 b1 hW1 _ _ (layerK_real (adj s d w) W0 b0 _) h1
  have h3 := layer_eq s d w hw W2 b2 hW2 _ _ (layerK_real (adj s d w) W1 b1 _) h2
  show (∑ t, layerK (adj s d w) W2 b2 (layerK (adj s d w) W1 b1 (layerK (adj s d w) W0 b0
          (tanhM (lin (pad x) encW encb)))) (up i) t * decW t j) + decb j
    = (∑ t, layerR s d w W2 b2 (layerR s d w W1 b1 (layerR s d w W0 b0 (tanhM (lin x encW encb)))) i t * decW t j)
        + decb j
  simp only [h3]

end Cert.Gcn

end
-- ==== Proof.PreFacts.lean ====
import proofs.«405037_j79285096284452_1_alg».proof.Pre_finite_inputs
import Idealize.ShloMosaic.Lib.ReduceAll
import Idealize.ShloMosaic.Lib.StableHlo.Predicate
import Idealize.ShloMosaic.PureOps.Ideal

namespace Cert.PreFacts

open Idealize.ShloMosaic Cert.Pre_finite_inputs

instance : Subsingleton S_.Idx := ⟨fun a b => funext fun d => d.elim0⟩

theorem inf_bits : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | top => simp [Ideal.cmp] at h
  | coe r => exact ⟨r, rfl⟩

theorem range_of_cmp (e : BitVec 32)
    (h : IntOp.andi (IntOp.cmpi .sge e 0#32) (IntOp.cmpi .slt e 10000#32) = 1#1) :
    0 ≤ e.toInt ∧ e.toInt < 10000 := by
  rw [IntOp.andi_eq_one, IntOp.cmpi_sge, IntOp.cmpi_slt] at h
  rw [show (0#32 : BitVec 32).toInt = 0 from by decide, show (10000#32 : BitVec 32).toInt = 10000 from by decide] at h
  exact h

theorem of_pre [Cert.Pre_finite_inputs.Facts] (a0 : FVec Ideal S10000x128 .f32) (a1 : IVec S2x640000 32)
    (a2 : FVec Ideal S640000 .f32) (a3 : FVec Ideal S128x128 .f32) (a4 : FVec Ideal S128 .f32)
    (a5 : FVec Ideal S3x128x128 .f32) (a6 : FVec Ideal S3x128 .f32) (a7 : FVec Ideal S128x64 .f32)
    (a8 : FVec Ideal S64 .f32)
    (h : Cert.Pre_finite_inputs.fn (F := Ideal) a0 a1 a2 a3 a4 a5 a6 a7 a8 = fun _ => 1#1) :
    (∀ i, ∃ r : ℝ, a2 i = (r : EReal))
      ∧ (∀ i, ∃ r : ℝ, a5 i = (r : EReal))
      ∧ (∀ i, 0 ≤ (a1 i).toInt ∧ (a1 i).toInt < 10000) := by

  have h0 := congrFun h (fun d => d.elim0)
  simp only [fn, fn_part1, fn_part2, andi, IntOp.andi_eq_one] at h0
  obtain ⟨⟨⟨⟨⟨⟨⟨⟨_, h2⟩, _⟩, _⟩, h5⟩, _⟩, _⟩, _⟩, h1⟩ := h0
  refine ⟨fun i => ?_, fun i => ?_, fun i => ?_⟩
  · exact real_of_abs_lt_inf (a2 i) (Host.reduce_andi_all _ _ _ _ _ h2 i)
  · exact real_of_abs_lt_inf (a5 i) (Host.reduce_andi_all _ _ _ _ _ h5 i)
  · exact range_of_cmp (a1 i) (Host.reduce_andi_all _ _ _ _ _ h1 i)

end Cert.PreFacts
-- ==== Proof.lean ====
import proofs.«405037_j79285096284452_1_alg».proof.Defs
import proofs.«405037_j79285096284452_1_alg».proof.Proof.Gen.Pre_finite_inputs
import proofs.«405037_j79285096284452_1_alg».proof.Proof.K.Run
import proofs.«405037_j79285096284452_1_alg».proof.Proof.KI.Run
import proofs.«405037_j79285096284452_1_alg».proof.Proof.KI.KernelValue
import proofs.«405037_j79285096284452_1_alg».proof.Proof.RefValue
import proofs.«405037_j79285096284452_1_alg».proof.Proof.SpecEq
import proofs.«405037_j79285096284452_1_alg».proof.Proof.PreFacts

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m g _ => Cert.Kernel.Hand.frame (F := Bits) m g

theorem frame_ki : Cert.frame_KernelIdeal := fun m g _ => Cert.KernelIdeal.Hand.frame (F := Ideal) m g

theorem frame_ri : Cert.frame_ReferenceIdeal := fun m g _ =>
  (θ_run Cert.ReferenceIdeal.defs _ _).mono (fun _ h c => (h c).2) (Cert.ReferenceIdeal.Value.run (F := Ideal) m g)

def node (x : BitVec 32) (h : 0 ≤ x.toInt ∧ x.toInt < 10000) : Fin Cert.Gcn.N := ⟨x.toInt.toNat, by have := h.1; have := h.2; show _ < 10000; omega⟩

theorem node_val (x : BitVec 32) (h : 0 ≤ x.toInt ∧ x.toInt < 10000) : x.toInt = ((node x h).val : ℤ) := by
  have := h.1; show x.toInt = ((x.toInt.toNat : ℕ) : ℤ); omega

theorem algebraic : Cert.algebraic_KernelIdeal_ReferenceIdeal := by
  intro m g m' g' hpre hagree
  refine ⟨fun c => Cert.KernelIdeal.Hand.W19 (F := Ideal) m g c (Proc.devRef .tc Cert.KernelIdeal.main_v50),
    Cert.KernelIdeal.Hand.run_result (F := Ideal) m g, ?_⟩
  refine (θ_run Cert.ReferenceIdeal.defs _ _).mono (fun _ h c => ⟨(h c).1.trans ?_, (h c).2⟩)
    (Cert.ReferenceIdeal.Value.run (F := Ideal) m' g')
  obtain ⟨hw, hW, hidx⟩ := Cert.PreFacts.of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c)
  obtain ⟨e0, e1, e2, e3, e4, e5, e6, e7, e8⟩ := hagree c
  rw [Cert.ReferenceIdeal.Read.val_main_v78_eq, e0, e1, e2, e3, e4, e5, e6, e7, e8]
  funext idx
  obtain ⟨p, q, rfl⟩ : ∃ (p : Fin 10000) (q : Fin 64), idx = ix2 p q := ⟨idx 0, idx 1, eq_ix2 idx⟩
  let s : Fin Cert.Gcn.E → Fin Cert.Gcn.N := fun e => node _ (hidx (ix2 (0 : Fin 2) e))
  let d : Fin Cert.Gcn.E → Fin Cert.Gcn.N := fun e => node _ (hidx (ix2 (1 : Fin 2) e))
  have hs : ∀ e : Fin 640000, ((m ((c.tc : Thread Cert.KernelIdeal.nD Cert.KernelIdeal.τ).loc Cert.KernelIdeal.main_arg1)) (ix2 (0 : Fin 2) e)).toInt = ((s e).val : ℤ) := fun e => node_val _ _
  have hd : ∀ e : Fin 640000, ((m ((c.tc : Thread Cert.KernelIdeal.nD Cert.KernelIdeal.τ).loc Cert.KernelIdeal.main_arg1)) (ix2 (1 : Fin 2) e)).toInt = ((d e).val : ℤ) := fun e => node_val _ _
  rw [Cert.RefValue.ref_value _ _ _ _ _ _ _ _ _ s d hs hd p q]
  exact (congrFun (congrFun (Cert.Gcn.kernelOut_eq_refOut s d _ (fun e => hw (ix1 e)) _ _ _ _ _ _ _ _ _ _ _
    (fun k j => hW (ix3 0 k j)) (fun k j => hW (ix3 1 k j)) (fun k j => hW (ix3 2 k j))) p) q).symm.trans (Cert.KernelIdeal.Hand.kernel_value m g c s d hs hd p q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
